-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S64x128 : Shape := ⟨2, ![64, 128]⟩
abbrev S64 : Shape := ⟨1, ![64]⟩
abbrev S40x64 : Shape := ⟨2, ![40, 64]⟩
abbrev S40 : Shape := ⟨1, ![40]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S40 .f32) (main_arg5 : IVec S2x1600000 32) (main_v13 : IVec S_ 1) (main_v16 : IVec S40x64 1) : IVec S_ 1 :=
  let main_c_5 : IVec S_ 1 := constantI S_ 1 1#1
  let main_v17 : IVec S_ 1 := (fun x v => Host.reduce IntOp.andi x v reducesTo_S40x64_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : IVec S1x1600000 32 := (extractStridedSlice S1x1600000 ![0, 0] · slices_S2x1600000_S1x1600000_0_0) main_arg5
  let main_v25 : IVec S1600000 32 := shapeCast S1600000 main_v24 shapeCasts_S1x1600000_S1600000
  let main_c_8 : IVec S_ 32 := constantI S_ 32 0#32
  let main_v26 : IVec S1600000 32 := broadcastInDim S1600000 ![] bcast_S_S1600000 main_c_8
  let main_v27 : IVec S1600000 1 := cmpi .sge main_v25 main_v26
  let main_v28 : IVec S1x1600000 32 := (extractStridedSlice S1x1600000 ![0, 0] · slices_S2x1600000_S1x1600000_0_0) main_arg5
  let main_v29 : IVec S1600000 32 := shapeCast S1600000 main_v28 shapeCasts_S1x1600000_S1600000
  let main_c_9 : IVec S_ 32 := constantI S_ 32 100000#32
  let main_v30 : IVec S1600000 32 := broadcastInDim S1600000 ![] bcast_S_S1600000 main_c_9
  let main_v31 : IVec S1600000 1 := cmpi .slt main_v29 main_v30
  let main_v32 : IVec S1600000 1 := andi main_v27 main_v31
  let main_c_10 : IVec S_ 1 := constantI S_ 1 1#1
  let main_v33 : IVec S_ 1 := (fun x v => Host.reduce IntOp.andi x v reducesTo_S1600000_S_d0 h_S_) main_v32 main_c_10
  let main_v34 : IVec S_ 1 := andi main_v23 main_v33
  main_v34

def fn {F : FTy → Type} [FloatOps F] (main_arg0 : FVec F S100000x128 .f32) (main_arg1 : FVec F S64x128 .f32) (main_arg2 : FVec F S64 .f32) (main_arg3 : FVec F S40x64 .f32) (main_arg4 : FVec F S40 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S40x64 .f32 := Host.absf main_arg3
  let main_cst_4 : FVec F S_ .f32 := constant S_ .f32 0x7F800000#32
  let main_v15 : FVec F S40x64 .f32 := broadcastInDim S40x64 ![] bcast_S_S40x64 main_cst_4
  let main_v16 : IVec S40x64 1 := cmpf .olt main_v14 main_v15
  fn_part1 (F := F) main_arg4 main_arg5 main_v13 main_v16
-- ==== Kernel.lean ====
abbrev S100000x128 : Shape := ⟨2, ![100000, 128]⟩
abbrev S64x128 : Shape := ⟨2, ![64, 128]⟩
abbrev S64 : Shape := ⟨1, ![64]⟩
abbrev S40x64 : Shape := ⟨2, ![40, 64]⟩
abbrev S40 : Shape := ⟨1, ![40]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1703936 : Shape := ⟨1, ![1703936]⟩
abbrev S128x64 : Shape := ⟨2, ![128, 64]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S1703936x64 : Shape := ⟨2, ![1703936, 64]⟩
abbrev S8192 : Shape := ⟨1, ![8192]⟩
abbrev S800x64 : Shape := ⟨2, ![800, 64]⟩
abbrev S8192x64 : Shape := ⟨2, ![8192, 64]⟩
abbrev S1x800 : Shape := ⟨2, ![1, 800]⟩
abbrev S8192x1 : Shape := ⟨2, ![8192, 1]⟩
abbrev S8192x800 : Shape := ⟨2, ![8192, 800]⟩
abbrev S800x1 : Shape := ⟨2, ![800, 1]⟩
abbrev S1x8192 : Shape := ⟨2, ![1, 8192]⟩
abbrev S800x8192 : Shape := ⟨2, ![800, 8192]⟩
abbrev S64x40 : Shape := ⟨2, ![64, 40]⟩
abbrev S1x40 : Shape := ⟨2, ![1, 40]⟩
abbrev S100000x40 : Shape := ⟨2, ![100000, 40]⟩
abbrev S2000x40 : Shape := ⟨2, ![2000, 40]⟩
abbrev S1703936x40 : Shape := ⟨2, ![1703936, 40]⟩
abbrev S800x40 : Shape := ⟨2, ![800, 40]⟩
abbrev S8192x40 : Shape := ⟨2, ![8192, 40]⟩
abbrev S800 : Shape := ⟨1, ![800]⟩

abbrev nBuf : Space → Nat
  | .hbm => 58
  | .vmem => 44
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S64, .f32⟩
  | .hbm, ⟨3, _⟩ => ⟨S40x64, .f32⟩
  | .hbm, ⟨4, _⟩ => ⟨S40, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S_, .i32⟩
  | .hbm, ⟨41, _⟩ => ⟨S1703936, .i32⟩
  | .hbm, ⟨42, _⟩ => ⟨S_, .i32⟩
  | .hbm, ⟨43, _⟩ => ⟨S_, .i32⟩
  | .hbm, ⟨44, _⟩ => ⟨S1703936, .i32⟩
  | .hbm, ⟨45, _⟩ => ⟨S_, .i32⟩
  | .hbm, ⟨46, _⟩ => ⟨S_, .f32⟩
  | .hbm, ⟨47, _⟩ => ⟨S1703936, .f32⟩
  | .hbm, ⟨48, _⟩ => ⟨S128x64, .f32⟩
  | .hbm, ⟨49, _⟩ => ⟨S1x64, .f32⟩
  | .hbm, ⟨50, _⟩ => ⟨S100000x64, .bf16⟩
  | .hbm, ⟨51, _⟩ => ⟨S1703936x64, .bf16⟩
  | .hbm, ⟨52, _⟩ => ⟨S100000x64, .f32⟩
  | .hbm, ⟨53, _⟩ => ⟨S64x40, .f32⟩
  | .hbm, ⟨54, _⟩ => ⟨S1x40, .f32⟩
  | .hbm, ⟨55, _⟩ => ⟨S100000x40, .bf16⟩
  | .hbm, ⟨56, _⟩ => ⟨S1703936x40, .bf16⟩
  | .hbm, ⟨57, _⟩ => ⟨S100000x40, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S1x64, .f32⟩
  | .local _ .vmem, ⟨4, _⟩ => ⟨S2000x64, .bf16⟩
  | .local _ .vmem, ⟨5, _⟩ => ⟨S2000x64, .bf16⟩
  | .local _ .vmem, ⟨6, _⟩ => ⟨S8192, .i32⟩
  | .local _ .vmem, ⟨7, _⟩ => ⟨S8192, .i32⟩
  | .local _ .vmem, ⟨8, _⟩ => ⟨S8192, .f32⟩
  | .local _ .vmem, ⟨9, _⟩ => ⟨S8192, .f32⟩
  | .local _ .vmem, ⟨10, _⟩ => ⟨S800x64, .bf16⟩
  | .local _ .vmem, ⟨11, _⟩ => ⟨S800x64, .bf16⟩
  | .local _ .vmem, ⟨12, _⟩ => ⟨S8192x64, .bf16⟩
  | .local _ .vmem, ⟨13, _⟩ => ⟨S8192x64, .bf16⟩
  | .local _ .vmem, ⟨14, _⟩ => ⟨S8192x64, .f32⟩
  | .local _ .vmem, ⟨15, _⟩ => ⟨S8192, .i32⟩
  | .local _ .vmem, ⟨16, _⟩ => ⟨S8192, .i32⟩
  | .local _ .vmem, ⟨17, _⟩ => ⟨S8192x64, .bf16⟩
  | .local _ .vmem, ⟨18, _⟩ => ⟨S8192x64, .bf16⟩
  | .local _ .vmem, ⟨19, _⟩ => ⟨S800x64, .f32⟩
  | .local _ .vmem, ⟨20, _⟩ => ⟨S800x64, .f32⟩
  | .local _ .vmem, ⟨21, _⟩ => ⟨S800x64, .f32⟩
  | .local _ .vmem, ⟨22, _⟩ => ⟨S2000x64, .f32⟩
  | .local _ .vmem, ⟨23, _⟩ => ⟨S2000x64, .f32⟩
  | .local _ .vmem, ⟨24, _⟩ => ⟨S64x40, .f32⟩
  | .local _ .vmem, ⟨25, _⟩ => ⟨S1x40, .f32⟩
  | .local _ .vmem, ⟨26, _⟩ => ⟨S2000x40, .bf16⟩
  | .local _ .vmem, ⟨27, _⟩ => ⟨S2000x40, .bf16⟩
  | .local _ .vmem, ⟨28, _⟩ => ⟨S8192, .i32⟩
  | .local _ .vmem, ⟨29, _⟩ => ⟨S8192, .i32⟩
  | .local _ .vmem, ⟨30, _⟩ => ⟨S8192, .f32⟩
  | .local _ .vmem, ⟨31, _⟩ => ⟨S8192, .f32⟩
  | .local _ .vmem, ⟨32, _⟩ => ⟨S800x40, .bf16⟩
  | .local _ .vmem, ⟨33, _⟩ => ⟨S800x40, .bf16⟩
  | .local _ .vmem, ⟨34, _⟩ => ⟨S8192x40, .bf16⟩
  | .local _ .vmem, ⟨35, _⟩ => ⟨S8192x40, .bf16⟩
  | .local _ .vmem, ⟨36, _⟩ => ⟨S8192x40, .f32⟩
  | .local _ .vmem, ⟨37, _⟩ => ⟨S8192, .i32⟩
  | .local _ .vmem, ⟨38, _⟩ => ⟨S8192, .i32⟩
  | .local _ .vmem, ⟨39, _⟩ => ⟨S8192x40, .bf16⟩
  | .local _ .vmem, ⟨40, _⟩ => ⟨S8192x40, .bf16⟩
  | .local _ .vmem, ⟨41, _⟩ => ⟨S800x40, .f32⟩
  | .local _ .vmem, ⟨42, _⟩ => ⟨S800x40, .f32⟩
  | .local _ .vmem, ⟨43, _⟩ => ⟨S800x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_4 : Ref sig .tc := ⟨.hbm, 39, rfl⟩
abbrev main_call0_v0 : Ref sig .tc := ⟨.hbm, 40, rfl⟩
abbrev main_v27 : Ref sig .tc := ⟨.hbm, 41, rfl⟩
abbrev main_c_5 : Ref sig .tc := ⟨.hbm, 42, rfl⟩
abbrev main_call1_v0 : Ref sig .tc := ⟨.hbm, 43, rfl⟩
abbrev main_v28 : Ref sig .tc := ⟨.hbm, 44, rfl⟩
abbrev main_c_6 : Ref sig .tc := ⟨.hbm, 45, rfl⟩
abbrev main_call2_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_scratch0 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc4_stg3_0 : Ref sig .tc := ⟨.vmem, 34, rfl⟩
abbrev cc4_stg3_1 : Ref sig .tc := ⟨.vmem, 35, rfl⟩
abbrev cc4_scratch0 : Ref sig .tc := ⟨.vmem, 36, rfl⟩
abbrev cc5_stg0_0 : Ref sig .tc := ⟨.vmem, 37, rfl⟩
abbrev cc5_stg0_1 : Ref sig .tc := ⟨.vmem, 38, rfl⟩
abbrev cc5_stg1_0 : Ref sig .tc := ⟨.vmem, 39, rfl⟩
abbrev cc5_stg1_1 : Ref sig .tc := ⟨.vmem, 40, rfl⟩
abbrev cc5_stg2_0 : Ref sig .tc := ⟨.vmem, 41, rfl⟩
abbrev cc5_stg2_1 : Ref sig .tc := ⟨.vmem, 42, rfl⟩
abbrev cc5_scratch0 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem3_0 : DmaSem sig := 24
abbrev cc3_sem3_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![208, 125], ![false, false]⟩

def k1_cond2 (i : grid1.Coords) : BitVec 1 :=
  let arg1 : BitVec 32 := BitVec.ofNat 32 (i 1).val
  let c124_i32 : BitVec 32 := 124#32
  let v24 : BitVec 1 := Scalar.cmpi .eq arg1 c124_i32
  let v25 : BitVec 32 := Scalar.extui v24
  let c0_i32_7 : BitVec 32 := 0#32
  let v26 : BitVec 1 := Scalar.cmpi .ne v25 c0_i32_7
  v26

def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8192 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S800x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8192x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![125, 208], ![false, false]⟩

def k2_cond2 (i : grid2.Coords) : BitVec 1 :=
  let arg1 : BitVec 32 := BitVec.ofNat 32 (i 1).val
  let c207_i32 : BitVec 32 := 207#32
  let v24 : BitVec 1 := Scalar.cmpi .eq arg1 c207_i32
  let v25 : BitVec 32 := Scalar.extui v24
  let c0_i32_7 : BitVec 32 := 0#32
  let v26 : BitVec 1 := Scalar.cmpi .ne v25 c0_i32_7
  v26

def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  ![arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S8192 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S8192x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S800x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x40 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x40 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨2, ![208, 125], ![false, false]⟩

def k4_cond2 (i : grid4.Coords) : BitVec 1 :=
  let arg1 : BitVec 32 := BitVec.ofNat 32 (i 1).val
  let c124_i32 : BitVec 32 := 124#32
  let v24 : BitVec 1 := Scalar.cmpi .eq arg1 c124_i32
  let v25 : BitVec 32 := Scalar.extui v24
  let c0_i32_7 : BitVec 32 := 0#32
  let v26 : BitVec 1 := Scalar.cmpi .ne v25 c0_i32_7
  v26

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_1 (i : grid4.Coords) : Fin 1 → Nat :=
  let arg0 : BitVec 32 := BitVec.ofNat 32 (i 0).val
  let arg1 : BitVec 32 := BitVec.ofNat 32 (i 1).val
  let c0_i32 : BitVec 32 := 0#32
  ![arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S8192 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S8192 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S800x40 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S8192x40 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![125, 208], ![false, false]⟩

def k5_cond2 (i : grid5.Coords) : BitVec 1 :=
  let arg1 : BitVec 32 := BitVec.ofNat 32 (i 1).val
  let c207_i32 : BitVec 32 := 207#32
  let v24 : BitVec 1 := Scalar.cmpi .eq arg1 c207_i32
  let v25 : BitVec 32 := Scalar.extui v24
  let c0_i32_7 : BitVec 32 := 0#32
  let v26 : BitVec 1 := Scalar.cmpi .ne v25 c0_i32_7
  v26

def cc5_transform_0 (i : grid5.Coords) : Fin 1 → Nat :=
  let arg0 : BitVec 32 := BitVec.ofNat 32 (i 0).val
  let arg1 : BitVec 32 := BitVec.ofNat 32 (i 1).val
  let c0_i32 : BitVec 32 := 0#32
  ![arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S8192 .i32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true]

abbrev stage5_1 : Fin 2 → Memref sig .tc .vmem S8192x40 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S800x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  pads_S1700000_S1703936_039360 : S1700000.Pads (![0] : Fin 1 → Nat) ![3936] ![0] S1703936
  h_S_ : 0 < S_.numel
  transposes_S64x128_S128x64_1_0 : S64x128.Transposes [1, 0] S128x64
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192_S8192_0 : ∀ a, (![0] : Fin 1 → Nat) a + S8192.size a ≤ S8192.size a
  h_S8192 : 0 < S8192.numel
  shapeCasts_S8192_S8192 : S8192.ShapeCasts S8192
  iota_S1x800_d1_w32 : S1x800.Iotas .tc 32 [1]
  shapeCasts_S8192_S8192x1 : S8192.ShapeCasts S8192x1
  broadcasts_S8192x1_S8192x800 : S8192x1.Broadcasts S8192x800
  broadcasts_S1x800_S8192x800 : S1x800.Broadcasts S8192x800
  natLt_1_32 : 1 < 32
  inb_S800x64_S800x64_0_0 : ∀ a, (![0, 0] : Fin 2 → Nat) a + S800x64.size a ≤ S800x64.size a
  h_S800x64 : 0 < S800x64.numel
  shapeCasts_S800x64_S800x64 : S800x64.ShapeCasts S800x64
  broadcasts_S8192x1_S8192x64 : S8192x1.Broadcasts S8192x64
  packedbf16_S8192x64_S8192x64_0_0 : (Rect.unit (s := S8192x64) ![0, 0] S8192x64.size inb_S8192x64_S8192x64_0_0).PackedRows (EltTy.packing .bf16)
  iota_S800x1_d0_w32 : S800x1.Iotas .tc 32 [0]
  shapeCasts_S8192_S1x8192 : S8192.ShapeCasts S1x8192
  broadcasts_S800x1_S800x8192 : S800x1.Broadcasts S800x8192
  broadcasts_S1x8192_S800x8192 : S1x8192.Broadcasts S800x8192
  transposes_S40x64_S64x40_1_0 : S40x64.Transposes [1, 0] S64x40
  shapeCasts_S40_S1x40 : S40.ShapeCasts S1x40
  shapeCasts_S2000x64_S2000x64 : S2000x64.ShapeCasts S2000x64
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  inb_S2000x40_S2000x40_0_0 : ∀ a, (![0, 0] : Fin 2 → Nat) a + S2000x40.size a ≤ S2000x40.size a
  h_S2000x40 : 0 < S2000x40.numel
  packedbf16_S2000x40_S2000x40_0_0 : (Rect.unit (s := S2000x40) ![0, 0] S2000x40.size inb_S2000x40_S2000x40_0_0).PackedRows (EltTy.packing .bf16)
  inb_S8192x40_S8192x40_0_0 : ∀ a, (![0, 0] : Fin 2 → Nat) a + S8192x40.size a ≤ S8192x40.size a
  h_S8192x40 : 0 < S8192x40.numel
  shapeCasts_S8192x40_S8192x40 : S8192x40.ShapeCasts S8192x40
  inb_S800x40_S800x40_0_0 : ∀ a, (![0, 0] : Fin 2 → Nat) a + S800x40.size a ≤ S800x40.size a
  h_S800x40 : 0 < S800x40.numel
  shapeCasts_S800x40_S800x40 : S800x40.ShapeCasts S800x40
  broadcasts_S8192x1_S8192x40 : S8192x1.Broadcasts S8192x40
  packedbf16_S8192x40_S8192x40_0_0 : (Rect.unit (s := S8192x40) ![0, 0] S8192x40.size inb_S8192x40_S8192x40_0_0).PackedRows (EltTy.packing .bf16)
  reduces_S800x40_S800 : S800x40.Reduces [1] S800
  shapeCasts_S800_S800x1 : S800.ShapeCasts S800x1
  broadcasts_S800x1_S800x40 : S800x1.Broadcasts S800x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x64_S2000x64_1_0_0_1_n_n_wf : DotDims.WF S2000x128 S128x64 S2000x64 [1] [0] [0] [1] [] []
  dot_S8192x800_S800x64_S8192x64_1_0_0_1_n_n_wf : DotDims.WF S8192x800 S800x64 S8192x64 [1] [0] [0] [1] [] []
  dot_S800x8192_S8192x64_S800x64_1_0_0_1_n_n_wf : DotDims.WF S800x8192 S8192x64 S800x64 [1] [0] [0] [1] [] []
  dot_S2000x64_S64x40_S2000x40_1_0_0_1_n_n_wf : DotDims.WF S2000x64 S64x40 S2000x40 [1] [0] [0] [1] [] []
  dot_S8192x800_S800x40_S8192x40_1_0_0_1_n_n_wf : DotDims.WF S8192x800 S800x40 S8192x40 [1] [0] [0] [1] [] []
  dot_S800x8192_S8192x40_S800x40_1_0_0_1_n_n_wf : DotDims.WF S800x8192 S8192x40 S800x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S100000x64.size a
  hwx0_3 : ∀ i : grid0.Coords, EltTy.bits .bf16 = 32 ∨ (Rect.block (s := S100000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192.size a ≤ S1703936.size a
  hwx1_0 : ∀ i : grid1.Coords, EltTy.bits .i32 = 32 ∨ (Rect.block (s := S1703936) S8192.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192.size a ≤ S1703936.size a
  hwx1_1 : ∀ i : grid1.Coords, EltTy.bits .f32 = 32 ∨ (Rect.block (s := S1703936) S8192.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S800x64.size a ≤ S100000x64.size a
  hwx1_2 : ∀ i : grid1.Coords, EltTy.bits .bf16 = 32 ∨ (Rect.block (s := S100000x64) S800x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x64.size a ≤ S1703936x64.size a
  hwx1_3 : ∀ i : grid1.Coords, EltTy.bits .bf16 = 32 ∨ (Rect.block (s := S1703936x64) S8192x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192.size a ≤ S1703936.size a
  hwx2_0 : ∀ i : grid2.Coords, EltTy.bits .i32 = 32 ∨ (Rect.block (s := S1703936) S8192.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8192x64.size a ≤ S1703936x64.size a
  hwx2_1 : ∀ i : grid2.Coords, EltTy.bits .bf16 = 32 ∨ (Rect.block (s := S1703936x64) S8192x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S800x64.size a ≤ S100000x64.size a
  hwx2_2 : ∀ i : grid2.Coords, EltTy.bits .f32 = 32 ∨ (Rect.block (s := S100000x64) S800x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x40.size a ≤ S64x40.size a
  hwx3_1 : ∀ i : grid3.Coords, EltTy.bits .f32 = 32 ∨ (Rect.block (s := S64x40) S64x40.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x40.size a ≤ S1x40.size a
  hwx3_2 : ∀ i : grid3.Coords, EltTy.bits .f32 = 32 ∨ (Rect.block (s := S1x40) S1x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x40.size a ≤ S100000x40.size a
  hwx3_3 : ∀ i : grid3.Coords, EltTy.bits .bf16 = 32 ∨ (Rect.block (s := S100000x40) S2000x40.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192.size a ≤ S1703936.size a
  hwx4_0 : ∀ i : grid4.Coords, EltTy.bits .i32 = 32 ∨ (Rect.block (s := S1703936) S8192.size (cc4_transform_0 i) (hinb4_0 i)).WholeWords (EltTy.packing .i32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192.size a ≤ S1703936.size a
  hwx4_1 : ∀ i : grid4.Coords, EltTy.bits .f32 = 32 ∨ (Rect.block (s := S1703936) S8192.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S800x40.size a ≤ S100000x40.size a
  hwx4_2 : ∀ i : grid4.Coords, EltTy.bits .bf16 = 32 ∨ (Rect.block (s := S100000x40) S800x40.size (cc4_transform_2 i) (hinb4_2 i)).WholeWords (EltTy.packing .bf16)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x40.size a ≤ S1703936x40.size a
  hwx4_3 : ∀ i : grid4.Coords, EltTy.bits .bf16 = 32 ∨ (Rect.block (s := S1703936x40) S8192x40.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192.size a ≤ S1703936.size a
  hwx5_0 : ∀ i : grid5.Coords, EltTy.bits .i32 = 32 ∨ (Rect.block (s := S1703936) S8192.size (cc5_transform_0 i) (hinb5_0 i)).WholeWords (EltTy.packing .i32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x40.size a ≤ S1703936x40.size a
  hwx5_1 : ∀ i : grid5.Coords, EltTy.bits .bf16 = 32 ∨ (Rect.block (s := S1703936x40) S8192x40.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S800x40.size a ≤ S100000x40.size a
  hwx5_2 : ∀ i : grid5.Coords, EltTy.bits .f32 = 32 ∨ (Rect.block (s := S100000x40) S800x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S8192x800_S800x64_S8192x64_1_0_0_1_n_n : DotDims S8192x800 S800x64 S8192x64 where
  lhsContracting := [1]
  rhsContracting := [0]
  lhsNonContracting := [0]
  rhsNonContracting := [1]
  lhsBatch := []
  rhsBatch := []
  wf := dot_S8192x800_S800x64_S8192x64_1_0_0_1_n_n_wf
def dot_S800x8192_S8192x64_S800x64_1_0_0_1_n_n : DotDims S800x8192 S8192x64 S800x64 where
  lhsContracting := [1]
  rhsContracting := [0]
  lhsNonContracting := [0]
  rhsNonContracting := [1]
  lhsBatch := []
  rhsBatch := []
  wf := dot_S800x8192_S8192x64_S800x64_1_0_0_1_n_n_wf
def dot_S2000x64_S64x40_S2000x40_1_0_0_1_n_n : DotDims S2000x64 S64x40 S2000x40 where
  lhsContracting := [1]
  rhsContracting := [0]
  lhsNonContracting := [0]
  rhsNonContracting := [1]
  lhsBatch := []
  rhsBatch := []
  wf := dot_S2000x64_S64x40_S2000x40_1_0_0_1_n_n_wf
def dot_S8192x800_S800x40_S8192x40_1_0_0_1_n_n : DotDims S8192x800 S800x40 S8192x40 where
  lhsContracting := [1]
  rhsContracting := [0]
  lhsNonContracting := [0]
  rhsNonContracting := [1]
  lhsBatch := []
  rhsBatch := []
  wf := dot_S8192x800_S800x40_S8192x40_1_0_0_1_n_n_wf
def dot_S800x8192_S8192x40_S800x40_1_0_0_1_n_n : DotDims S800x8192 S8192x40 S800x40 where
  lhsContracting := [1]
  rhsContracting := [0]
  lhsNonContracting := [0]
  rhsNonContracting := [1]
  lhsBatch := []
  rhsBatch := []
  wf := dot_S800x8192_S8192x40_S800x40_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S800x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v33) S8192x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v28) S8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S8192x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S800x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v34) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v35) S64x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x40.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S2000x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v27) S8192.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v29) S8192.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v37) S800x40.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38) S8192x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v28) S8192.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v38) S8192x40.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v39) S800x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev idle5 : Fin 3 → grid5.Coords → Bool := fun | 0 => fun _ => false | 1 => fun _ => false | 2 => fun i => !(k5_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S64x128 : Shape := ⟨2, ![64, 128]⟩
abbrev S64 : Shape := ⟨1, ![64]⟩
abbrev S40x64 : Shape := ⟨2, ![40, 64]⟩
abbrev S40 : Shape := ⟨1, ![40]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S128x64 : Shape := ⟨2, ![128, 64]⟩
abbrev S100000x64 : Shape := ⟨2, ![100000, 64]⟩
abbrev S1x64 : Shape := ⟨2, ![1, 64]⟩
abbrev S_ : Shape := ⟨0, ![]⟩
abbrev S1700000x1 : Shape := ⟨2, ![1700000, 1]⟩
abbrev S1700000x64 : Shape := ⟨2, ![1700000, 64]⟩
abbrev S64x40 : Shape := ⟨2, ![64, 40]⟩
abbrev S100000x40 : Shape := ⟨2, ![100000, 40]⟩
abbrev S1x40 : Shape := ⟨2, ![1, 40]⟩
abbrev S1700000x40 : Shape := ⟨2, ![1700000, 40]⟩
abbrev S100000x1 : Shape := ⟨2, ![100000, 1]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S64x128, .f32⟩
  | .hbm, ⟨2, _⟩ => ⟨S64, .f32⟩
  | .hbm, ⟨3, _⟩ => ⟨S40x64, .f32⟩
  | .hbm, ⟨4, _⟩ => ⟨S40, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S128x64, .f32⟩
  | .hbm, ⟨14, _⟩ => ⟨S100000x64, .f32⟩
  | .hbm, ⟨15, _⟩ => ⟨S1x64, .f32⟩
  | .hbm, ⟨16, _⟩ => ⟨S100000x64, .f32⟩
  | .hbm, ⟨17, _⟩ => ⟨S100000x64, .f32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S_, .f32⟩
  | .hbm, ⟨61, _⟩ => ⟨S100000x64, .f32⟩
  | .hbm, ⟨62, _⟩ => ⟨S100000x64, .f32⟩
  | .hbm, ⟨63, _⟩ => ⟨S64x40, .f32⟩
  | .hbm, ⟨64, _⟩ => ⟨S100000x40, .f32⟩
  | .hbm, ⟨65, _⟩ => ⟨S1x40, .f32⟩
  | .hbm, ⟨66, _⟩ => ⟨S100000x40, .f32⟩
  | .hbm, ⟨67, _⟩ => ⟨S100000x40, .f32⟩
  | .hbm, ⟨68, _⟩ => ⟨S_, .f32⟩
  | .hbm, ⟨69, _⟩ => ⟨S1700000, .f32⟩
  | .hbm, ⟨70, _⟩ => ⟨S_, .f32⟩
  | .hbm, ⟨71, _⟩ => ⟨S100000, .f32⟩
  | .hbm, ⟨72, _⟩ => ⟨S1700000x1, .i32⟩
  | .hbm, ⟨73, _⟩ => ⟨S100000, .f32⟩
  | .hbm, ⟨74, _⟩ => ⟨S100000, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000, .f32⟩
  | .hbm, ⟨93, _⟩ => ⟨S1700000, .f32⟩
  | .hbm, ⟨94, _⟩ => ⟨S1700000x1, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x40, .f32⟩
  | .hbm, ⟨104, _⟩ => ⟨S1700000x40, .f32⟩
  | .hbm, ⟨105, _⟩ => ⟨S1700000x40, .f32⟩
  | .hbm, ⟨106, _⟩ => ⟨S_, .f32⟩
  | .hbm, ⟨107, _⟩ => ⟨S100000x40, .f32⟩
  | .hbm, ⟨108, _⟩ => ⟨S1700000x1, .i32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S_, .f32⟩
  | .hbm, ⟨113, _⟩ => ⟨S100000, .f32⟩
  | .hbm, ⟨114, _⟩ => ⟨S100000, .f32⟩
  | .hbm, ⟨115, _⟩ => ⟨S100000x1, .f32⟩
  | .hbm, ⟨116, _⟩ => ⟨S100000x40, .f32⟩
  | .hbm, ⟨117, _⟩ => ⟨S100000x40, .f32⟩
  | .hbm, ⟨118, _⟩ => ⟨S100000x40, .f32⟩
  | .hbm, ⟨119, _⟩ => ⟨S_, .f32⟩
  | .hbm, ⟨120, _⟩ => ⟨S100000, .f32⟩
  | .hbm, ⟨121, _⟩ => ⟨S100000x1, .f32⟩
  | .hbm, ⟨122, _⟩ => ⟨S100000x1, .f32⟩
  | .hbm, ⟨123, _⟩ => ⟨S100000x40, .f32⟩
  | .hbm, ⟨124, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c : Ref sig .tc := ⟨.hbm, 25, rfl⟩
abbrev main_v17 : Ref sig .tc := ⟨.hbm, 26, rfl⟩
abbrev main_v18 : Ref sig .tc := ⟨.hbm, 27, rfl⟩
abbrev main_c_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_v24 : Ref sig .tc := ⟨.hbm, 35, rfl⟩
abbrev main_v25 : Ref sig .tc := ⟨.hbm, 36, rfl⟩
abbrev main_c_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_v33 : Ref sig .tc := ⟨.hbm, 46, rfl⟩
abbrev main_v34 : Ref sig .tc := ⟨.hbm, 47, rfl⟩
abbrev main_c_5 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_call0_cst : Ref sig .tc := ⟨.hbm, 60, rfl⟩
abbrev main_call0_v0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_c_9 : Ref sig .tc := ⟨.hbm, 75, rfl⟩
abbrev main_v56 : Ref sig .tc := ⟨.hbm, 76, rfl⟩
abbrev main_v57 : Ref sig .tc := ⟨.hbm, 77, rfl⟩
abbrev main_c_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_11 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_13 : Ref sig .tc := ⟨.hbm, 95, rfl⟩
abbrev main_v72 : Ref sig .tc := ⟨.hbm, 96, rfl⟩
abbrev main_v73 : Ref sig .tc := ⟨.hbm, 97, rfl⟩
abbrev main_c_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_15 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_call1_cst : Ref sig .tc := ⟨.hbm, 110, rfl⟩
abbrev main_call1_v0 : Ref sig .tc := ⟨.hbm, 111, rfl⟩
abbrev main_call1_cst_0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_call1_v5 : Ref sig .tc := ⟨.hbm, 117, rfl⟩
abbrev main_call1_v6 : Ref sig .tc := ⟨.hbm, 118, rfl⟩
abbrev main_call1_cst_1 : Ref sig .tc := ⟨.hbm, 119, rfl⟩
abbrev main_call1_v7 : Ref sig .tc := ⟨.hbm, 120, rfl⟩
abbrev main_call1_v8 : Ref sig .tc := ⟨.hbm, 121, rfl⟩
abbrev main_call1_v9 : Ref sig .tc := ⟨.hbm, 122, rfl⟩
abbrev main_call1_v10 : Ref sig .tc := ⟨.hbm, 123, rfl⟩
abbrev main_v84 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x128_S128x64_S100000x64_1_0_0_1_n_n_wf : DotDims.WF S100000x128 S128x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.LibWhole.lean ====
import Idealize.ShloMosaic.Lib.Pipeline.FrameBody
import Idealize.ShloMosaic.Lib.Pipeline.Value
import Idealize.ShloMosaic.Lib.Tactic
noncomputable section
namespace Cert.Whole
open Idealize.ShloMosaic

theorem zOne : (![0] : Fin 1 → Nat) = fun _ => 0 := by funext a; fin_cases a <;> rfl
theorem zPair : (![0, 0] : Fin 2 → Nat) = fun _ => 0 := by funext a; fin_cases a <;> rfl

variable {sig' : RefSig} {κ : Kind} {sp : Space} {S : Shape} {e : EltTy} {Val : EltTy → Type} [∀ e, Nonempty (Val e)]

theorem read_writes {off : Fin S.rank → Nat} (h : off = fun _ => 0) (v : View sig' κ sp S e) (f : v.ty.Contents Val)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self .., View.mem_set_unit_zero h inb y⟩),
    View.canon_cons_unit_zero h inb w L]

theorem readCov {off : Fin S.rank → Nat} (h : off = fun _ => 0) (v : View sig' κ sp S e)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h inb w L, View.ld_unit_zero h inb]

theorem readAt {off : Fin S.rank → Nat} (h : off = fun _ => 0) (v : View sig' κ sp S e) (f : v.ty.Contents Val)
    (inb : ∀ a, off a + S.size a ≤ S.size a) :
    v.readAt Val (Rect.unit off S.size inb).toLoadRect f = v.read Val f := by
  rw [View.readAt_eq_ld, View.ld_unit_zero h inb]

end Cert.Whole
end
-- ==== Proof.KI.HostFold.lean ====
import proofs.«133651_j30339648979593_1_alg».proof.Proof.Gen.KernelIdeal.Launch
import Idealize.ShloMosaic.Lib.StableHlo.Run

noncomputable section

namespace Cert.KernelIdeal.Hand

open Idealize.ShloMosaic Idealize.ShloMosaic.TcCoe
open Idealize.SL Idealize.SL.Sem
open Cert.KernelIdeal Cert.KernelIdeal.Gen

variable {F : FTy → Type} [FloatOps F]
variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)

abbrev W2 : Dev nD → Valuation τ sig (Elt F) := fun c => StableHlo.after hostOps0_1 (W1 m c)

abbrev W3 : Dev nD → Valuation τ sig (Elt F) := fun c => StableHlo.after hostOps0_2 (W2 m c)

abbrev W4 : Dev nD → Valuation τ sig (Elt F) := fun c => StableHlo.after hostOps0_3 (W3 m c)

abbrev W5 : Dev nD → Valuation τ sig (Elt F) := fun c => StableHlo.after hostOps0_4 (W4 m c)

abbrev W6 : Dev nD → Valuation τ sig (Elt F) := fun c => StableHlo.after hostOps0_5 (W5 m c)

abbrev W7 : Dev nD → Valuation τ sig (Elt F) := fun c => StableHlo.after hostOps0_6 (W6 m c)

end Cert.KernelIdeal.Hand

end
-- ==== Proof.KI.Lin0Sched.lean ====
import proofs.«133651_j30339648979593_1_alg».proof.Proof.Gen.KernelIdeal.Launch
import proofs.«133651_j30339648979593_1_alg».proof.Proof.Gen.KernelIdeal.Skeleton
import Idealize.ShloMosaic.Lib.Pipeline.Kit
noncomputable section
namespace Cert.KernelIdeal.Hand
open Idealize.ShloMosaic Idealize.ShloMosaic.TcCoe
open Idealize.SL Idealize.SL.Sem
open Cert.KernelIdeal Cert.KernelIdeal.Gen
variable {F : FTy → Type} [FloatOps F]

abbrev bodyAt0 (t : Fin cfg0.N) : Prog (TpuEff nD τ sig (Elt F) Λ₀ .tc) PUnit :=
  cc0__linear_kernel (grid0.coords t) (win0_0.stage (cfg0.slots t 0)) (hstage0_0 _) (win0_1.stage (cfg0.slots t 1)) (hstage0_1 _)
    (win0_2.stage (cfg0.slots t 2)) (hstage0_2 _) (win0_3.stage (cfg0.slots t 3)) (hstage0_3 _)

theorem flush0_3 : ∀ t : Fin cfg0.N, (cfg0.win 3).flush t = true :=
  (by decide +kernel : ∀ t : Fin grid0.N, win0_3.flush t = true)

end Cert.KernelIdeal.Hand
-- ==== Proof.KI.Lin0.lean ====
import proofs.«133651_j30339648979593_1_alg».proof.Proof.Gen.KernelIdeal.Launch
import proofs.«133651_j30339648979593_1_alg».proof.Proof.Gen.KernelIdeal.Skeleton
import proofs.«133651_j30339648979593_1_alg».proof.Proof.KI.Lin0Sched
import proofs.«133651_j30339648979593_1_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)
open Cert.KernelIdeal Cert.KernelIdeal.Gen Cert.Whole
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

set_option maxHeartbeats 1000000 in
theorem sound_kernel0 (c : Dev nD) (E : Set ℕ) (i : grid0.Coords)
    (arg1 : Memref sig .tc .vmem S2000x128 .f32) (harg1 : arg1.IsWhole)
    (arg2 : Memref sig .tc .vmem S128x64 .f32) (harg2 : arg2.IsWhole)
    (arg3 : Memref sig .tc .vmem S1x64 .f32) (harg3 : arg3.IsWhole)
    (arg4 : Memref sig .tc .vmem S2000x64 .bf16) (harg4 : arg4.IsWhole)
    (x0 : Vec F S2000x128 .f32) (x1 : Vec F S128x64 .f32) (x2 : Vec F S1x64 .f32) (K : PUnit → sProp 𝕄) :
    iprop(owns (c : Thread nD τ) arg1 fullShare x0 ∗ owns (c : Thread nD τ) arg2 fullShare x1
        ∗ owns (c : Thread nD τ) arg3 fullShare x2 ∗ (∃ d, owns (c : Thread nD τ) arg4 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (k0_pay1 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]; · iexists f0; iframe; ipureintro; rfl
  isplitl [H1]; · iexists f1; iframe; ipureintro; rfl
  isplitl [H2]; · iexists f2; iframe; ipureintro; rfl
  iexists _; iframe; ipureintro
  rw [read_writes zPair, readAt zPair, readAt zPair, readAt zPair]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay1 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := rfl

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, before0_2]
  show _ ⊢ wp _ _ _ (bodyAt0 t) fun _ => iprop((dat0 V c).Φ t.castSucc ∗ (dat0 V c).owesAt () t.castSucc
    ∗ owns (c : Thread nD τ) ((cfg0.win 0).stage (cfg0.slots t 0)) fullShare (iblk0 V c 0 t) ∗ owns (c : Thread nD τ) ((cfg0.win 1).stage (cfg0.slots t 1)) fullShare (iblk0 V c 1 t)
    ∗ owns (c : Thread nD τ) ((cfg0.win 2).stage (cfg0.slots t 2)) fullShare (iblk0 V c 2 t)
    ∗ owns (c : Thread nD τ) ((cfg0.win 3).stage (cfg0.slots t 3)) fullShare (k0_pay1 (iblk0 V c 0 t) (iblk0 V c 1 t) (iblk0 V c 2 t)))
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

theorem Phi_in0 (c : Dev nD) : (Pipeline.ΦA spec0 c : sProp 𝕄) ⊢ (dat0 V c).Φ 0 := .rfl
theorem Phi_out0 (c : Dev nD) : (dat0 V c).Φ (Fin.last cfg0.N) ⊢ (Pipeline.ΦA spec0 c : sProp 𝕄) := .rfl

end Cert.KernelIdeal.Hand
-- ==== Proof.KI.Gat1Sched.lean ====
import proofs.«133651_j30339648979593_1_alg».proof.Proof.Gen.KernelIdeal.Launch
set_option maxRecDepth 16384
noncomputable section
namespace Cert.KernelIdeal.Hand
open Idealize.ShloMosaic Idealize.SL.Sem
open Cert.KernelIdeal Cert.KernelIdeal.Gen
variable {F : FTy → Type} [FloatOps F]

abbrev st1 (t : Fin cfg1.N) (w : Fin cfg1.W) := (cfg1.win w).stage (cfg1.slots t w)

abbrev bodyAt1 (t : Fin cfg1.N) : Prog (TpuEff nD τ sig (Elt F) Λ₀ .tc) PUnit :=
  cc1__gather_kernel (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (Memref.whole cc1_scratch0) (Memref.isWhole_whole _)

-- the inner axis runs fastest
theorem coordsInner1 (t : Fin cfg1.N) : ((grid1.coords t) 1).val = t.val % 125 := by
  show t.val / grid1.stride 1 % 125 = t.val % 125
  rw [show grid1.stride 1 = 1 by decide, Nat.div_one]

theorem wordNat1 {n : ℕ} (h : n < 26000) : (BitVec.ofNat 32 n).toNat = n := by
  rw [BitVec.toNat_ofNat]; exact Nat.mod_eq_of_lt (by have h32 : (2:ℕ) ^ 32 = 4294967296 := (by decide); omega)

theorem idxOuter1 (t : Fin cfg1.N) : (BitVec.ofNat 32 ((grid1.coords t) 0).val).toNat = t.val / 125 := by
  have hN : t.val < 26000 := lt_of_lt_of_eq t.isLt N_1
  rw [show ((grid1.coords t) 0).val = t.val / 125 by
    show t.val / grid1.stride 0 % 208 = t.val / 125
    rw [show grid1.stride 0 = 125 by decide]; omega]
  exact wordNat1 (by omega)

theorem idx1_0 (t : Fin cfg1.N) : win1_0.index t 0 = t.val / 125 := idxOuter1 t
theorem idx1_1 (t : Fin cfg1.N) : win1_1.index t 0 = t.val / 125 := idxOuter1 t
theorem idx1_2_0 (t : Fin cfg1.N) : win1_2.index t 0 = t.val % 125 := by
  show (BitVec.ofNat 32 ((grid1.coords t) 1).val).toNat = _
  rw [coordsInner1]; exact wordNat1 (by omega)
theorem idx1_2_1 (t : Fin cfg1.N) : win1_2.index t 1 = 0 := rfl
theorem idx1_3_0 (t : Fin cfg1.N) : win1_3.index t 0 = t.val / 125 := idxOuter1 t
theorem idx1_3_1 (t : Fin cfg1.N) : win1_3.index t 1 = 0 := rfl

theorem flush1_3 (t : Fin cfg1.N) : (cfg1.win 3).flush t = true ↔ t.val % 125 = 124 := by
  have hN : t.val < 26000 := lt_of_lt_of_eq t.isLt N_1
  have hi : ∀ s : Fin cfg1.N, win1_3.index s = win1_3.index t ↔ s.val / 125 = t.val / 125 := fun s =>
    ⟨fun h => (idx1_3_0 s).symm.trans ((congrFun h 0).trans (idx1_3_0 t)), fun h => funext fun a => by
      match a with
      | ⟨0, _⟩ => exact (idx1_3_0 s).trans (h.trans (idx1_3_0 t).symm)
      | ⟨1, _⟩ => rfl⟩
  rw [show cfg1.win 3 = win1_3 from rfl, Pipeline.Window.flush_out _ rfl]
  constructor
  · rintro (h | ⟨h, hne⟩)
    · have := h.trans N_1; omega
    · by_contra hc; exact hne ((hi _).2 (by show (t.val + 1) / 125 = t.val / 125; omega))
  · intro h
    by_cases hl : t.val + 1 = 26000
    · exact Or.inl (hl.trans N_1.symm)
    · exact Or.inr ⟨lt_of_lt_of_eq (by omega) N_1.symm, fun he => by have := (hi _).1 he; simp only at this; omega⟩

end Cert.KernelIdeal.Hand
end
-- ==== Proof.KI.Gat1Body.lean ====
import proofs.«133651_j30339648979593_1_alg».proof.Proof.Gen.KernelIdeal.Launch
import proofs.«133651_j30339648979593_1_alg».proof.Proof.Gen.KernelIdeal.Skeleton
import proofs.«133651_j30339648979593_1_alg».proof.Proof.LibWhole
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole
variable {F : FTy → Type} [FloatOps F]
local notation "𝕄" => MT nD τ sig Unit (Elt F) ℕ (UR sig nD τ) ℕ

abbrev condReset1 (i : grid1.Coords) : Prop :=
  Scalar.cmpi .ne (Scalar.extui (Scalar.cmpi .eq (BitVec.ofNat 32 (i 1).val) 0#32)) 0#32 = 1#1
abbrev condStore1 (i : grid1.Coords) : Prop := k1_cond2 i = 1#1

theorem condReset1_iff (i : grid1.Coords) : condReset1 i ↔ (i 1).val = 0 :=
  (by decide +kernel : ∀ j : Fin 125, (Scalar.cmpi .ne (Scalar.extui (Scalar.cmpi .eq (BitVec.ofNat 32 j.val) 0#32)) 0#32 = 1#1) ↔ j.val = 0) (i 1)
theorem condStore1_iff (i : grid1.Coords) : condStore1 i ↔ (i 1).val = 124 :=
  (by decide +kernel : ∀ j : Fin 125, (Scalar.cmpi .ne (Scalar.extui (Scalar.cmpi .eq (BitVec.ofNat 32 j.val) 124#32)) 0#32 = 1#1) ↔ j.val = 124) (i 1)

def step1 (i : grid1.Coords) (x0 : Vec F S8192 .i32) (x2 : Vec F S800x64 .bf16) (xs : Vec F S8192x64 .f32) : Vec F S8192x64 .f32 :=
  k1_pay2 i x0 x2 (if (i 1).val = 0 then k1_pay1 else xs)

set_option maxHeartbeats 1000000 in
theorem sound_kernel1 (c : Dev nD) (E : Set ℕ) (i : grid1.Coords)
    (arg2 : Memref sig .tc .vmem S8192 .i32) (harg2 : arg2.IsWhole) (arg3 : Memref sig .tc .vmem S8192 .f32) (harg3 : arg3.IsWhole)
    (arg4 : Memref sig .tc .vmem S800x64 .bf16) (harg4 : arg4.IsWhole) (arg5 : Memref sig .tc .vmem S8192x64 .bf16) (harg5 : arg5.IsWhole)
    (arg6 : Memref sig .tc .vmem S8192x64 .f32) (harg6 : arg6.IsWhole)
    (x0 : Vec F S8192 .i32) (x1 : Vec F S8192 .f32) (x2 : Vec F S800x64 .bf16) (d5 : Vec F S8192x64 .bf16) (xs : Vec F S8192x64 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare d5 ∗ owns (c : Thread nD τ) arg6 fullShare xs
        ∗ (iprop(owns (c : Thread nD τ) arg2 fullShare x0 ∗ owns (c : Thread nD τ) arg3 fullShare x1 ∗ owns (c : Thread nD τ) arg4 fullShare x2
            ∗ owns (c : Thread nD τ) arg5 fullShare (if condStore1 i then k1_pay3 (step1 i x0 x2 xs) x1 else d5)
            ∗ owns (c : Thread nD τ) arg6 fullShare (step1 i x0 x2 xs)) -∗ K ⟨⟩))
      ⊢ wp frame (wpE (defs₀ (F := F)) Variants.none c none) E (cc1__gather_kernel i arg2 harg2 arg3 harg3 arg4 harg4 arg5 harg5 arg6 harg6) K := by
  simp only [cc1__gather_kernel_eq_skeleton]; unfold cc1__gather_kernel_skel
  unfold owns step1
  by_cases hc0 : condReset1 i <;> by_cases hc1 : condStore1 i <;>
  · first | rw [if_pos ((condReset1_iff i).1 hc0)] | rw [if_neg (mt (condReset1_iff i).2 hc0)]
    first | rw [if_pos hc1] | rw [if_neg hc1]
    iintro ⟨⟨%f0, %hf0, H0⟩, ⟨%f1, %hf1, H1⟩, ⟨%f2, %hf2, H2⟩, ⟨%f5, %hf5, H5⟩, ⟨%fs, %hfs, HS⟩, Hk⟩
    subst hf0; subst hf1; subst hf2; subst hf5; subst hfs
    sl_exec (disch := first | exact hc0 | exact hc1)
    sl_step
    iapply Hk
    isplitl [H0]; swap; isplitl [H1]; swap; isplitl [H2]; swap; isplitl [H5]
    all_goals (iexists _; isplitr; swap; iassumption; ipureintro; first | (sl_unfold_words; simp only [read_writes (S := S8192x64) zPair, readCov (S := S8192x64) zPair, View.readAt_eq_ld,
      View.ld_unit_zero (S := S8192) zOne, View.ld_unit_zero (S := S800x64) zPair, View.ld_unit_zero (S := S8192x64) zPair]) | rfl)

end Cert.KernelIdeal.Hand
end
-- ==== Proof.KI.Gat1.lean ====
import proofs.«133651_j30339648979593_1_alg».proof.Proof.KI.Gat1Sched
import proofs.«133651_j30339648979593_1_alg».proof.Proof.KI.Gat1Body
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- the accumulator after the first n points
def acc1 (c : Dev nD) : ℕ → Vec F S8192x64 .f32
  | 0 => k1_pay1
  | n + 1 =>
    if h : n < cfg1.N then step1 (grid1.coords ⟨n, h⟩) (iblk1 V c 0 ⟨n, h⟩) (iblk1 V c 2 ⟨n, h⟩) (acc1 c n)
    else acc1 c n

theorem acc1_succ (c : Dev nD) (t : Fin cfg1.N) :
    acc1 V c (t.val + 1) = step1 (grid1.coords t) (iblk1 V c 0 t) (iblk1 V c 2 t) (acc1 V c t.val) :=
  dif_pos t.isLt

-- at the first point the inner coordinate is 0, where the update does not depend on X
theorem stepAcc1 (c : Dev nD) (t : Fin cfg1.N) (X : Vec F S8192x64 .f32) (hX : t.val ≠ 0 → X = acc1 V c t.val) :
    step1 (grid1.coords t) (iblk1 V c 0 t) (iblk1 V c 2 t) X = acc1 V c (t.val + 1) := by
  rw [acc1_succ]
  by_cases hz : t.val = 0
  · have hj : ((grid1.coords t) 1).val = 0 := by rw [coordsInner1, hz]
    unfold step1; rw [if_pos hj, if_pos hj]
  · rw [hX hz]

def Phi1 (c : Dev nD) (n : ℕ) : sProp 𝕄 :=
  iprop(Pipeline.scopedRestBut (Ix := Unit) (Name := ℕ) (U := UR sig nD τ) (Lvl := ℕ) (Val := Elt F) spec1 c [cc1_scratch0]
    ∗ (∃ X, ⌜n ≠ 0 → X = acc1 V c n⌝ ∗ owns (c : Thread nD τ) (Memref.whole cc1_scratch0) fullShare X)
    ∗ ∃ r, prngReg c r)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c (t.val + 1)) (iblk1 V c 1 t)
  Φ t := Phi1 V c t.val
  q _ := fullShare
  owed _ := 0

theorem A_eq1 (c : Dev nD) (w : Fin cfg1.W) : (dat1 V c).A w = V c (Pipeline.arrRef spec1 w) := rfl

theorem after1_3 (c : Dev nD) (t : Fin cfg1.N) :
    (dat1 V c).after 3 t = k1_pay3 (acc1 V c (t.val + 1)) (iblk1 V c 1 t) := rfl

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem leaves1 (c : Dev nD) (t : Fin cfg1.N) (d) (X : Vec F S8192x64 .f32) (hX : t.val ≠ 0 → X = acc1 V c t.val) :
    owns (c : Thread nD τ) (st1 t 3) fullShare (if condStore1 (grid1.coords t)
        then k1_pay3 (step1 (grid1.coords t) (iblk1 V c 0 t) (iblk1 V c 2 t) X) (iblk1 V c 1 t) else (dat1 V c).before 3 t d)
      ⊢ (dat1 V c).leavesExact 3 t := by
  rw [stepAcc1 V c t X hX]
  by_cases h1 : condStore1 (grid1.coords t)
  · rw [if_pos h1, show (dat1 V c).leavesExact 3 t = owns (c : Thread nD τ) (st1 t 3) fullShare ((dat1 V c).after 3 t) from by
      unfold Dat.leavesExact
      rw [show cfg1.idle 3 (grid1.coords t) = false by
        show (!(k1_cond2 (grid1.coords t) == 1#1)) = false
        rw [show k1_cond2 (grid1.coords t) = 1#1 from h1]; rfl], after1_3]
  · rw [if_neg h1, Dat.leavesExact_idle (dat1 V c) 3 t
      (by show (!(k1_cond2 (grid1.coords t) == 1#1)) = true; simp [show ¬(k1_cond2 (grid1.coords t) = 1#1) from h1])
      (Bool.eq_false_iff.mpr fun hf => h1 ((condStore1_iff _).mpr (by rw [coordsInner1]; exact (flush1_3 t).mp hf)))]
    iintro H; iexists d; iexact H

set_option maxHeartbeats 2000000 in
theorem body_obligation1 (c : Dev nD) : BodyObligation (dat1 (F := F) V c) (defs₀ (F := F)) Variants.none () Set.univ := fun t => by
  rw [bigSep_W1, bigSep_W1]
  show iprop(Phi1 V c t.val ∗ (dat1 V c).owesAt () t.castSucc
      ∗ (∃ d, owns (c : Thread nD τ) (st1 t 0) fullShare ((dat1 V c).before 0 t d))
      ∗ (∃ d, owns (c : Thread nD τ) (st1 t 1) fullShare ((dat1 V c).before 1 t d))
      ∗ (∃ d, owns (c : Thread nD τ) (st1 t 2) fullShare ((dat1 V c).before 2 t d))
      ∗ (∃ d, owns (c : Thread nD τ) (st1 t 3) fullShare ((dat1 V c).before 3 t d)))
    ⊢ wp frame (wpE (defs₀ (F := F)) Variants.none c none) Set.univ (bodyAt1 t) (fun _ =>
      iprop(Phi1 V c (t.val + 1) ∗ (dat1 V c).owesAt () t.castSucc
        ∗ owns (c : Thread nD τ) (st1 t 0) fullShare (iblk1 V c 0 t)
        ∗ owns (c : Thread nD τ) (st1 t 1) fullShare (iblk1 V c 1 t)
        ∗ owns (c : Thread nD τ) (st1 t 2) fullShare (iblk1 V c 2 t)
        ∗ (dat1 V c).leavesExact 3 t))
  unfold bodyAt1 Phi1
  simp only [before1_0, before1_1, before1_2]
  iintro ⟨⟨Hr, ⟨%X, %hX, HS⟩, Hg⟩, Ho, ⟨%d0, H0⟩, ⟨%d1, H1⟩, ⟨%d2, H2⟩, ⟨%d3, H3⟩⟩
  rw [← stepAcc1 V c t X hX]
  iapply (sound_kernel1 c Set.univ (grid1.coords t) _ _ _ _ _ _ _ _ _ _ (iblk1 V c 0 t) (iblk1 V c 1 t) (iblk1 V c 2 t) _ X _)
  iframe H0 H1 H2 H3 HS
  iintro ⟨H0, H1, H2, H3, HS⟩
  iframe Hr Hg Ho H0 H1 H2
  isplitl [HS]
  · iexists _; isplitr
    · ipureintro; exact fun _ => rfl
    iexact HS
  iapply (leaves1 V c t d3 X hX); iexact H3

theorem Phi_in1 (c : Dev nD) : (Pipeline.ΦA spec1 c : sProp 𝕄) ⊢ (dat1 V c).Φ 0 := by
  rw [show (dat1 V c).Φ 0 = Phi1 V c 0 from rfl]
  unfold Phi1 Pipeline.ΦA
  rw [scopedRest1_split]; simp only [owns_whole]
  iintro ⟨⟨⟨%d, HS⟩, Hr⟩, Hg⟩
  iframe Hr Hg
  iexists d; isplitr
  · ipureintro; exact fun h => absurd rfl h
  iexact HS

theorem Phi_out1 (c : Dev nD) : (dat1 V c).Φ (Fin.last cfg1.N) ⊢ (Pipeline.ΦA spec1 c : sProp 𝕄) := by
  rw [show (dat1 V c).Φ (Fin.last cfg1.N) = Phi1 V c (Fin.last cfg1.N).val from rfl]
  unfold Phi1 Pipeline.ΦA
  rw [scopedRest1_split]; simp only [owns_whole]
  iintro ⟨Hr, ⟨%X, -, HS⟩, Hg⟩
  iframe Hr Hg
  iexists X; iexact HS

end Cert.KernelIdeal.Hand
end
-- ==== Proof.KI.Sca2Sched.lean ====
import proofs.«133651_j30339648979593_1_alg».proof.Proof.Gen.KernelIdeal.Launch
import proofs.«133651_j30339648979593_1_alg».proof.Proof.Gen.KernelIdeal.Skeleton
import Idealize.ShloMosaic.Lib.Pipeline.Kit
noncomputable section
namespace Cert.KernelIdeal.Hand
open Idealize.ShloMosaic Idealize.ShloMosaic.TcCoe
open Idealize.SL Idealize.SL.Sem
open Idealize.ShloMosaic.Pipeline (Window)
open Cert.KernelIdeal Cert.KernelIdeal.Gen
variable {F : FTy → Type} [FloatOps F]

abbrev st2_0 (t : Fin cfg2.N) := (cfg2.win 0).stage (cfg2.slots t 0)
abbrev st2_1 (t : Fin cfg2.N) := (cfg2.win 1).stage (cfg2.slots t 1)
abbrev st2_2 (t : Fin cfg2.N) := (cfg2.win 2).stage (cfg2.slots t 2)

abbrev bodyAt2 (t : Fin cfg2.N) : Prog (TpuEff nD τ sig (Elt F) Λ₀ .tc) PUnit :=
  cc2__scatter_kernel (grid2.coords t) (win2_0.stage (cfg2.slots t 0)) (hstage2_0 ((cfg2.slots t 0).cast nbuf2_0))
    (win2_1.stage (cfg2.slots t 1)) (hstage2_1 ((cfg2.slots t 1).cast nbuf2_1))
    (win2_2.stage (cfg2.slots t 2)) (hstage2_2 ((cfg2.slots t 2).cast nbuf2_2))
    (Memref.whole cc2_scratch0) (Memref.isWhole_whole _)

theorem coordFirst2 (t : Fin cfg2.N) : ((cfg2.grid.coords t) 0).val = t.val / 208 := by
  have hN : t.val < 26000 := lt_of_lt_of_eq t.isLt N_2
  show t.val / grid2.stride 0 % 125 = t.val / 208
  rw [show grid2.stride 0 = 208 from by decide]
  exact Nat.mod_eq_of_lt (by omega)

theorem index2_2 (t : Fin cfg2.N) : win2_2.index t 0 = t.val / 208 ∧ win2_2.index t 1 = 0 := by
  have hN : t.val < 26000 := lt_of_lt_of_eq t.isLt N_2
  refine ⟨?_, rfl⟩
  show (BitVec.ofNat 32 ((grid2.coords t) 0).val).toNat = t.val / 208
  rw [BitVec.toNat_ofNat, coordFirst2]
  exact Nat.mod_eq_of_lt (by omega)

theorem indexEq2 (s t : Fin cfg2.N) : win2_2.index s = win2_2.index t ↔ s.val / 208 = t.val / 208 := by
  refine ⟨fun e => ?_, fun e => funext fun ax => ?_⟩
  · rw [← (index2_2 s).1, ← (index2_2 t).1, e]
  · match ax with
    | ⟨0, _⟩ => exact (index2_2 s).1.trans (e.trans (index2_2 t).1.symm)
    | ⟨1, _⟩ => rfl

theorem flush2_2 (t : Fin cfg2.N) : (cfg2.win 2).flush t = true ↔ t.val % 208 = 207 := by
  have hN : cfg2.N = 26000 := N_2
  have htN : t.val < 26000 := lt_of_lt_of_eq t.isLt hN
  have key : (cfg2.win 2).flush t = true
      ↔ (t.val + 1 = cfg2.N ∨ ∃ h : t.val + 1 < cfg2.N, win2_2.index ⟨t.val + 1, h⟩ ≠ win2_2.index t) := by
    show win2_2.flush t = true ↔ _
    unfold Window.flush
    rw [show win2_2.isOut = true from rfl, Bool.true_and, Bool.or_eq_true, decide_eq_true_eq, decide_eq_true_eq]
  rw [key]
  refine ⟨?_, fun h => ?_⟩
  · rintro (h | ⟨h, hne⟩)
    · omega
    · have hd : (t.val + 1) / 208 ≠ t.val / 208 := fun e => hne ((indexEq2 ⟨t.val + 1, h⟩ t).mpr e)
      omega
  · by_cases hl : t.val + 1 = cfg2.N
    · exact .inl hl
    · exact .inr ⟨by omega, fun e => by
        have e0 : (t.val + 1) / 208 = t.val / 208 := (indexEq2 ⟨t.val + 1, _⟩ t).mp e
        omega⟩

end Cert.KernelIdeal.Hand
end
-- ==== Proof.KI.Sca2Body.lean ====
import proofs.«133651_j30339648979593_1_alg».proof.Proof.Gen.KernelIdeal.Launch
import proofs.«133651_j30339648979593_1_alg».proof.Proof.Gen.KernelIdeal.Skeleton
import proofs.«133651_j30339648979593_1_alg».proof.Proof.LibWhole
import Idealize.ShloMosaic.Lib.Pipeline.RegionsLoop
import Idealize.ShloMosaic.Lib.Pipeline.FrameSuffix
import Idealize.ShloMosaic.Lib.Ring
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen Cert.Whole
variable {F : FTy → Type} [FloatOps F]
local notation "𝕄" => MT nD τ sig Unit (Elt F) ℕ (UR sig nD τ) ℕ

abbrev condA2 (i : grid2.Coords) : Prop :=
  Scalar.cmpi .ne (Scalar.extui (Scalar.cmpi .eq (BitVec.ofNat 32 (i 1).val) 0#32)) 0#32 = 1#1

-- both conditions test one word of the last coordinate (below 208) against a constant
theorem chainBit2 (i : grid2.Coords) (k : ℕ) (hk : k < 2 ^ 32) :
    (Scalar.cmpi .ne (Scalar.extui (Scalar.cmpi .eq (BitVec.ofNat 32 (i 1).val) (BitVec.ofNat 32 k))) 0#32 = 1#1) ↔ (i 1).val = k := by
  have hlt : (i 1).val < 208 := (i 1).isLt
  have hw : BitVec.ofNat 32 (i 1).val = BitVec.ofNat 32 k ↔ (i 1).val = k :=
    ⟨fun h => by
      have e := congrArg BitVec.toNat h
      rwa [BitVec.toNat_ofNat, BitVec.toNat_ofNat, Nat.mod_eq_of_lt (by omega), Nat.mod_eq_of_lt hk] at e, fun h => by rw [h]⟩
  show (BitVec.ofBool ((BitVec.ofBool (BitVec.ofNat 32 (i 1).val == BitVec.ofNat 32 k)).setWidth 32 != 0#32) = 1#1) ↔ _
  by_cases h : (i 1).val = k
  · rw [show (BitVec.ofNat 32 (i 1).val == BitVec.ofNat 32 k) = true from by simpa using hw.mpr h]
    exact iff_of_true (by decide) h
  · rw [show (BitVec.ofNat 32 (i 1).val == BitVec.ofNat 32 k) = false from by simpa using fun e => h (hw.mp e)]
    exact iff_of_false (by decide) h

theorem condA_iff2 (i : grid2.Coords) : condA2 i ↔ (i 1).val = 0 := chainBit2 i 0 (by decide)

theorem condB_iff2 (i : grid2.Coords) : k2_cond2 i = 1#1 ↔ (i 1).val = 207 := chainBit2 i 207 (by decide)

def accStep2 (i : grid2.Coords) (x0 : Vec F S8192 .i32) (x1 : Vec F S8192x64 .bf16) (xs : Vec F S800x64 .f32) : Vec F S800x64 .f32 :=
  k2_pay2 i x0 x1 (if condA2 i then k2_pay1 else xs)

def outStep2 (i : grid2.Coords) (x0 : Vec F S8192 .i32) (x1 : Vec F S8192x64 .bf16) (x2 xs : Vec F S800x64 .f32) : Vec F S800x64 .f32 :=
  if k2_cond2 i = 1#1 then k2_pay3 (accStep2 i x0 x1 xs) else x2

set_option maxHeartbeats 2000000 in
theorem sound_kernel2 (c : Dev nD) (E : Set ℕ) (i : grid2.Coords)
    (arg2 : Memref sig .tc .vmem S8192 .i32) (harg2 : arg2.IsWhole)
    (arg3 : Memref sig .tc .vmem S8192x64 .bf16) (harg3 : arg3.IsWhole)
    (arg4 : Memref sig .tc .vmem S800x64 .f32) (harg4 : arg4.IsWhole)
    (arg5 : Memref sig .tc .vmem S800x64 .f32) (harg5 : arg5.IsWhole)
    (x0 : Vec F S8192 .i32) (x1 : Vec F S8192x64 .bf16) (x2 xs : Vec F S800x64 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare xs
        ∗ (iprop(owns (c : Thread nD τ) arg2 fullShare x0 ∗ owns (c : Thread nD τ) arg3 fullShare x1
            ∗ owns (c : Thread nD τ) arg4 fullShare (outStep2 i x0 x1 x2 xs)
            ∗ owns (c : Thread nD τ) arg5 fullShare (accStep2 i x0 x1 xs)) -∗ K ⟨⟩))
      ⊢ wp frame (wpE (defs₀ (F := F)) Variants.none c none) E (cc2__scatter_kernel i arg2 harg2 arg3 harg3 arg4 harg4 arg5 harg5) K := by
  simp only [cc2__scatter_kernel_eq_skeleton]; unfold cc2__scatter_kernel_skel owns
  iintro ⟨⟨%f0, %hf0, H0⟩, ⟨%f1, %hf1, H1⟩, ⟨%f2, %hf2, H2⟩, ⟨%fs, %hfs, HS⟩, Hk⟩
  subst hf0 hf1 hf2 hfs
  by_cases hA : condA2 i <;> by_cases hB : k2_cond2 i = 1#1 <;>
  · sl_exec (disch := first | exact hA | exact hB)
    sl_step
    iapply Hk
    isplitl [H0]
    · iexists f0; iframe H0; ipureintro; rfl
    isplitl [H1]
    · iexists f1; iframe H1; ipureintro; rfl
    isplitl [H2] <;>
    · iexists _; isplitr
      swap; · first | iexact H2 | iexact HS
      ipureintro
      simp only [outStep2, accStep2, hB, ↓reduceIte]
      first
      | done
      | (first | rw [if_pos hA] | rw [if_neg hA])
        sl_unfold_words
        simp only [read_writes (S := S800x64) zPair, readCov (S := S800x64) zPair,
          readAt (S := S8192) zOne, readAt (S := S8192x64) zPair, readAt (S := S800x64) zPair]

end Cert.KernelIdeal.Hand
end
-- ==== Proof.KI.Sca2.lean ====
import proofs.«133651_j30339648979593_1_alg».proof.Proof.KI.Sca2Sched
import proofs.«133651_j30339648979593_1_alg».proof.Proof.KI.Sca2Body
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal Cert.KernelIdeal.Gen
variable {F : FTy → Type} [FloatOps F]
local notation "𝕄" => MT nD τ sig Unit (Elt F) ℕ (UR sig nD τ) ℕ
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem coordLast2 (t : Fin cfg2.N) : ((cfg2.grid.coords t) 1).val = t.val % 208 := by
  show t.val / grid2.stride 1 % 208 = t.val % 208
  rw [show grid2.stride 1 = 1 from by decide, Nat.div_one]

theorem condA_at2 (t : Fin cfg2.N) : condA2 (cfg2.grid.coords t) ↔ t.val % 208 = 0 := by
  rw [condA_iff2, coordLast2]

theorem condB_at2 (t : Fin cfg2.N) : k2_cond2 (cfg2.grid.coords t) = 1#1 ↔ t.val % 208 = 207 := by
  rw [condB_iff2, coordLast2]

def accN2 (c : Dev nD) : ℕ → Vec F S800x64 .f32
  | 0 => k2_pay1
  | n + 1 =>
    if h : n < cfg2.N then
      accStep2 (cfg2.grid.coords ⟨n, h⟩) (iblk2 V c 0 ⟨n, h⟩) (iblk2 V c 1 ⟨n, h⟩) (accN2 c n)
    else accN2 c n

def acc2 (c : Dev nD) (t : Fin (cfg2.N + 1)) : Vec F S800x64 .f32 := accN2 V c t.val

theorem acc2_succ (c : Dev nD) (t : Fin cfg2.N) :
    acc2 V c t.succ = k2_pay2 (cfg2.grid.coords t) (iblk2 V c 0 t) (iblk2 V c 1 t)
      (if condA2 (cfg2.grid.coords t) then k2_pay1 else acc2 V c t.castSucc) := by
  show accN2 V c (t.val + 1) = _
  rw [accN2, dif_pos t.isLt]; rfl

abbrev scM2 : Memref sig .tc .vmem S800x64 .f32 := Memref.whole cc2_scratch0

def PhiS2 (c : Dev nD) (t : Fin (cfg2.N + 1)) : sProp 𝕄 :=
  iprop(iprop(∃ d, ⌜t.val ≠ 0 → d = acc2 V c t⌝ ∗ owns (c : Thread nD τ) scM2 fullShare d)
    ∗ Pipeline.scopedRestBut spec2 c [cc2_scratch0]
    ∗ (∃ r, prngReg c r))

theorem PhiA_eq2 (c : Dev nD) :
    (Pipeline.ΦA spec2 c : sProp 𝕄)
      = iprop(iprop(iprop(∃ d, owns (c : Thread nD τ) scM2 fullShare d)
          ∗ Pipeline.scopedRestBut spec2 c [cc2_scratch0])
          ∗ (∃ r, prngReg c r)) := by
  unfold Pipeline.ΦA; rw [scopedRest2_split]; simp only [scM2, owns_whole]; try rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => k2_pay3 (acc2 V c t.succ)
  Φ t := PhiS2 V c t
  q _ := fullShare
  owed _ := 0

theorem A_eq2 (c : Dev nD) (w : Fin cfg2.W) : (dat2 V c).A w = V c (Pipeline.arrRef spec2 w) := rfl

theorem after2_2 (c : Dev nD) (t : Fin cfg2.N) : (dat2 V c).after 2 t = k2_pay3 (acc2 V c t.succ) := rfl

theorem Phi_eq2 (c : Dev nD) (t : Fin (cfg2.N + 1)) : (dat2 V c).Φ t = PhiS2 V c t := rfl

theorem before2_0 (c : Dev nD) (t : Fin cfg2.N) (d) : (dat2 V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun _ => rfl) t d).trans rfl

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

theorem accStep_eq2 (c : Dev nD) (t : Fin cfg2.N) (ds : Vec F S800x64 .f32) (hds : t.castSucc.val ≠ 0 → ds = acc2 V c t.castSucc) :
    accStep2 (cfg2.grid.coords t) (iblk2 V c 0 t) (iblk2 V c 1 t) ds = acc2 V c t.succ := by
  rw [acc2_succ]; unfold accStep2
  by_cases hA : condA2 (cfg2.grid.coords t)
  · rw [if_pos hA, if_pos hA]
  · rw [if_neg hA, if_neg hA, hds (fun h0 => hA ((condA_at2 t).mpr (by rw [show t.val = 0 from h0])))]

-- at last coordinate 207 the step's output is the final map of the accumulator; elsewhere it is what was there
theorem leaves2 (c : Dev nD) (t : Fin cfg2.N) (d2) (ds : Vec F S800x64 .f32) (hds : t.castSucc.val ≠ 0 → ds = acc2 V c t.castSucc) :
    owns (c : Thread nD τ) (st2_2 t) fullShare (outStep2 (grid2.coords t) (iblk2 V c 0 t) (iblk2 V c 1 t) ((dat2 V c).before 2 t d2) ds)
      ⊢ (dat2 V c).leavesExact 2 t := by
  unfold outStep2
  by_cases hB : k2_cond2 (cfg2.grid.coords t) = 1#1
  · rw [if_pos hB, accStep_eq2 V c t ds hds, show (dat2 V c).leavesExact 2 t
        = owns (c : Thread nD τ) (st2_2 t) fullShare ((dat2 V c).after 2 t) from by
      unfold Dat.leavesExact; rw [show cfg2.idle 2 (cfg2.grid.coords t) = false from by
        show (!(k2_cond2 (cfg2.grid.coords t) == 1#1)) = false
        rw [hB]; rfl], after2_2]
  · rw [if_neg hB, Dat.leavesExact_idle (dat2 V c) 2 t
      (by show (!(k2_cond2 (cfg2.grid.coords t) == 1#1)) = true
          rw [Bool.not_eq_true', beq_eq_false_iff_ne]; exact hB)
      (Bool.eq_false_iff.mpr fun h => hB ((condB_at2 t).mpr ((flush2_2 t).mp h)))]
    iintro H; iexists d2; iexact H

set_option maxHeartbeats 1000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl,
    show (dat2 V c).leavesExact 0 t = owns (c : Thread nD τ) (st2_0 t) fullShare (iblk2 V c 0 t) from rfl,
    show (dat2 V c).leavesExact 1 t = owns (c : Thread nD τ) (st2_1 t) fullShare (iblk2 V c 1 t) from rfl,
    Phi_eq2, Phi_eq2]
  unfold PhiS2
  iintro ⟨⟨⟨%ds, %hds, HS⟩, HR, Hg⟩, Ho, ⟨%d0, H0⟩, ⟨%d1, H1⟩, ⟨%d2, H2⟩⟩
  iapply (sound_kernel2 c Set.univ (grid2.coords t) _ _ _ _ _ _ _ _ (iblk2 V c 0 t) (iblk2 V c 1 t) ((dat2 V c).before 2 t d2) ds _)
  iframe H0 H1 H2 HS
  iintro ⟨H0, H1, H2, HS⟩
  rw [accStep_eq2 V c t ds hds]
  iframe HR Hg Ho H0 H1
  isplitl [HS]
  · iexists _; iframe HS; ipureintro; exact fun _ => rfl
  iapply leaves2 V c t d2 ds hds; iexact H2

theorem body_obligation2 (c : Dev nD) : BodyObligation (dat2 (F := F) V c) (defs₀ (F := F)) Variants.none () Set.univ := fun t => by
  rw [bigSep_W2, bigSep_W2]
  exact sound_body2 V c t

theorem Phi_in2 (c : Dev nD) : (Pipeline.ΦA spec2 c : sProp 𝕄) ⊢ (dat2 V c).Φ 0 := by
  rw [Phi_eq2, PhiA_eq2]; unfold PhiS2
  iintro ⟨⟨⟨%d, HS⟩, HR⟩, Hg⟩
  iframe HR Hg
  iexists d; iframe HS; ipureintro; exact fun h => absurd rfl h

theorem Phi_out2 (c : Dev nD) : (dat2 V c).Φ (Fin.last cfg2.N) ⊢ (Pipeline.ΦA spec2 c : sProp 𝕄) := by
  rw [Phi_eq2, PhiA_eq2]; unfold PhiS2
  iintro ⟨⟨%d, -, HS⟩, HR, Hg⟩
  iframe HR Hg
  iexists d; iexact HS

end Cert.KernelIdeal.Hand
end
-- ==== Proof.KI.Run.lean ====
import proofs.«133651_j30339648979593_1_alg».proof.Proof.Gen.KernelIdeal.Launch
import proofs.«133651_j30339648979593_1_alg».proof.Proof.Gen.KernelIdeal.Skeleton
import proofs.«133651_j30339648979593_1_alg».proof.Proof.Gen.KernelIdeal.Regions
import proofs.«133651_j30339648979593_1_alg».proof.Proof.KI.HostFold
import proofs.«133651_j30339648979593_1_alg».proof.Proof.KI.Lin0
import proofs.«133651_j30339648979593_1_alg».proof.Proof.KI.Gat1
import proofs.«133651_j30339648979593_1_alg».proof.Proof.KI.Sca2
import proofs.«133651_j30339648979593_1_alg».proof.Proof.KI.Lin3
import proofs.«133651_j30339648979593_1_alg».proof.Proof.KI.Gat4
import proofs.«133651_j30339648979593_1_alg».proof.Proof.KI.Sca5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (m : (ℓ : Loc nD τ sig) → Buf (Elt F) ℓ)

abbrev V7 : (c : Dev nD) → (b : Ref sig .tc) → Buf (Elt F) ((c : Thread nD τ).loc b) := fun c b => W7 m c b
def W8 (c : Dev nD) : Valuation τ sig (Elt F) :=
  Pipeline.withArrays spec0 c (W7 m c) fun w => (dat0 (V7 m) c).arrAt w cfg0.N
theorem W8_arr (c : Dev nD) (w : Fin cfg0.W) :
    W8 m c (Proc.devRef .tc (Pipeline.arrRef spec0 w)) = (dat0 (V7 m) c).arrAt w cfg0.N := by
  unfold W8; exact Pipeline.withArrays_arr spec0 launch0.win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
abbrev V8 : (c : Dev nD) → (b : Ref sig .tc) → Buf (Elt F) ((c : Thread nD τ).loc b) := fun c b => W8 m c b
def W9 (c : Dev nD) : Valuation τ sig (Elt F) :=
  Pipeline.withArrays spec1 c (W8 m c) fun w => (dat1 (V8 m) c).arrAt w cfg1.N
theorem W9_arr (c : Dev nD) (w : Fin cfg1.W) :
    W9 m c (Proc.devRef .tc (Pipeline.arrRef spec1 w)) = (dat1 (V8 m) c).arrAt w cfg1.N := by
  unfold W9; exact Pipeline.withArrays_arr spec1 launch1.win.arr_inj c _ _ w
theorem W9_of_ne (c : Dev nD) (b : Ref sig .tc) (hb : ∀ w, Pipeline.arrRef spec1 w ≠ b) :
    W9 m c (Proc.devRef .tc b) = W8 m c (Proc.devRef .tc b) := by
  unfold W9; exact Pipeline.withArrays_of_ne spec1 c _ _ b hb
abbrev V9 : (c : Dev nD) → (b : Ref sig .tc) → Buf (Elt F) ((c : Thread nD τ).loc b) := fun c b => W9 m c b
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
abbrev W11 : Dev nD → Valuation τ sig (Elt F) := fun c => StableHlo.after hostOps3 (W10 m c)
abbrev V11 : (c : Dev nD) → (b : Ref sig .tc) → Buf (Elt F) ((c : Thread nD τ).loc b) := fun c b => W11 m c b
def W12 (c : Dev nD) : Valuation τ sig (Elt F) :=
  Pipeline.withArrays spec3 c (W11 m c) fun w => (dat3 (V11 m) c).arrAt w cfg3.N
theorem W12_arr (c : Dev nD) (w : Fin cfg3.W) :
    W12 m c (Proc.devRef .tc (Pipeline.arrRef spec3 w)) = (dat3 (V11 m) c).arrAt w cfg3.N := by
  unfold W12; exact Pipeline.withArrays_arr spec3 launch3.win.arr_inj c _ _ w
theorem W12_of_ne (c : Dev nD) (b : Ref sig .tc) (hb : ∀ w, Pipeline.arrRef spec3 w ≠ b) :
    W12 m c (Proc.devRef .tc b) = W11 m c (Proc.devRef .tc b) := by
  unfold W12; exact Pipeline.withArrays_of_ne spec3 c _ _ b hb
abbrev V12 : (c : Dev nD) → (b : Ref sig .tc) → Buf (Elt F) ((c : Thread nD τ).loc b) := fun c b => W12 m c b
def W13 (c : Dev nD) : Valuation τ sig (Elt F) :=
  Pipeline.withArrays spec4 c (W12 m c) fun w => (dat4 (V12 m) c).arrAt w cfg4.N
theorem W13_arr (c : Dev nD) (w : Fin cfg4.W) :
    W13 m c (Proc.devRef .tc (Pipeline.arrRef spec4 w)) = (dat4 (V12 m) c).arrAt w cfg4.N := by
  unfold W13; exact Pipeline.withArrays_arr spec4 launch4.win.arr_inj c _ _ w
theorem W13_of_ne (c : Dev nD) (b : Ref sig .tc) (hb : ∀ w, Pipeline.arrRef spec4 w ≠ b) :
    W13 m c (Proc.devRef .tc b) = W12 m c (Proc.devRef .tc b) := by
  unfold W13; exact Pipeline.withArrays_of_ne spec4 c _ _ b hb
abbrev V13 : (c : Dev nD) → (b : Ref sig .tc) → Buf (Elt F) ((c : Thread nD τ).loc b) := fun c b => W13 m c b
def W14 (c : Dev nD) : Valuation τ sig (Elt F) :=
  Pipeline.withArrays spec5 c (W13 m c) fun w => (dat5 (V13 m) c).arrAt w cfg5.N
theorem W14_arr (c : Dev nD) (w : Fin cfg5.W) :
    W14 m c (Proc.devRef .tc (Pipeline.arrRef spec5 w)) = (dat5 (V13 m) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb

theorem W14_eq_W8 (c : Dev nD) (b : Ref sig .tc)
    (h : (∀ w, Pipeline.arrRef spec5 w ≠ b) ∧ (∀ w, Pipeline.arrRef spec4 w ≠ b) ∧ (∀ w, Pipeline.arrRef spec3 w ≠ b)
      ∧ b ∉ hostOps3_W ∧ (∀ w, Pipeline.arrRef spec2 w ≠ b) ∧ ∀ w, Pipeline.arrRef spec1 w ≠ b) :
    W14 m c (Proc.devRef .tc b) = W8 m c (Proc.devRef .tc b) :=
  (W14_of_ne m c b h.1).trans <| (W13_of_ne m c b h.2.1).trans <| (W12_of_ne m c b h.2.2.1).trans <|
    (StableHlo.after_of_writes_sub hostOps3 _ hostOps3_writes h.2.2.2.1).trans <|
    (W10_of_ne m c b h.2.2.2.2.1).trans (W9_of_ne m c b h.2.2.2.2.2)

theorem W7_eq_launch (c : Dev nD) (b : Ref sig .tc)
    (h : b ∉ hostOps0_6_W ∧ b ∉ hostOps0_5_W ∧ b ∉ hostOps0_4_W ∧ b ∉ hostOps0_3_W ∧ b ∉ hostOps0_2_W ∧ b ∉ hostOps0_1_W
      ∧ b ∉ hostOps0_W) :
    W7 m c (Proc.devRef .tc b) = m ((c : Thread nD τ).loc b) :=
  (StableHlo.after_of_writes_sub hostOps0_6 _ hostOps0_6_writes h.1).trans <|
    (StableHlo.after_of_writes_sub hostOps0_5 _ hostOps0_5_writes h.2.1).trans <|
    (StableHlo.after_of_writes_sub hostOps0_4 _ hostOps0_4_writes h.2.2.1).trans <|
    (StableHlo.after_of_writes_sub hostOps0_3 _ hostOps0_3_writes h.2.2.2.1).trans <|
    (StableHlo.after_of_writes_sub hostOps0_2 _ hostOps0_2_writes h.2.2.2.2.1).trans <|
    (StableHlo.after_of_writes_sub hostOps0_1 _ hostOps0_1_writes h.2.2.2.2.2.1).trans
      (StableHlo.after_of_writes_sub hostOps0 _ hostOps0_writes h.2.2.2.2.2.2)

theorem W14_main_arg0 (c : Dev nD) : W14 m c (Proc.devRef .tc main_arg0) = m ((c : Thread nD τ).loc main_arg0) :=
  (W14_eq_W8 m c _ (by decide)).trans <|
    ((W8_arr m c 0).trans (((dat0 (V7 m) c).arrAt_in 0 rfl _).trans (A_eq0 (V7 m) c 0))).trans (W7_eq_launch m c _ (by decide))
theorem W14_main_arg1 (c : Dev nD) : W14 m c (Proc.devRef .tc main_arg1) = m ((c : Thread nD τ).loc main_arg1) :=
  (W14_eq_W8 m c _ (by decide)).trans <| (W8_of_ne m c _ (by decide)).trans (W7_eq_launch m c _ (by decide))
theorem W14_main_arg2 (c : Dev nD) : W14 m c (Proc.devRef .tc main_arg2) = m ((c : Thread nD τ).loc main_arg2) :=
  (W14_eq_W8 m c _ (by decide)).trans <| (W8_of_ne m c _ (by decide)).trans (W7_eq_launch m c _ (by decide))
theorem W14_main_arg3 (c : Dev nD) : W14 m c (Proc.devRef .tc main_arg3) = m ((c : Thread nD τ).loc main_arg3) :=
  (W14_eq_W8 m c _ (by decide)).trans <| (W8_of_ne m c _ (by decide)).trans (W7_eq_launch m c _ (by decide))
theorem W14_main_arg4 (c : Dev nD) : W14 m c (Proc.devRef .tc main_arg4) = m ((c : Thread nD τ).loc main_arg4) :=
  (W14_eq_W8 m c _ (by decide)).trans <| (W8_of_ne m c _ (by decide)).trans (W7_eq_launch m c _ (by decide))
theorem W14_main_arg5 (c : Dev nD) : W14 m c (Proc.devRef .tc main_arg5) = m ((c : Thread nD τ).loc main_arg5) :=
  (W14_eq_W8 m c _ (by decide)).trans <| (W8_of_ne m c _ (by decide)).trans (W7_eq_launch m c _ (by decide))

abbrev adm : (p : Fin 6) → (pcfgs (F := F) p).Adm := fun p => (cfgs p).toPCfg_adm
def pdats : (p : Fin 6) → (c : Dev nD) → Dat τ (Elt F) Unit ℕ (UR sig nD τ) ℕ (Pipeline.pin (pcfgs (F := F)) adm p) c
  | ⟨0, _⟩ => fun c => dat0 (V7 m) c
  | ⟨1, _⟩ => fun c => dat1 (V8 m) c
  | ⟨2, _⟩ => fun c => dat2 (V9 m) c
  | ⟨3, _⟩ => fun c => dat3 (V11 m) c
  | ⟨4, _⟩ => fun c => dat4 (V12 m) c
  | ⟨5, _⟩ => fun c => dat5 (V13 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W14 m c) ∗ ∃ r, prngReg c r)

set_option backward.isDefEq.respectTransparency.types false in

def mkReg (p : Fin 6) (lf : Pipeline.LaunchFacts (nD := nD) (τ := τ) cfgs p) (Win Wout : Dev nD → Valuation τ sig (Elt F))
    (hshare : ∀ c w, (pdats m p c).share w = fullShare) (howed : ∀ c t, (pdats m p c).owed t = 0)
    (hrec : ∀ c x, x ∈ (pdats m p c).recorded 0)
    (hA : ∀ c w, (pdats m p c).A w = Win c (Proc.devRef .tc (Pipeline.arrRef (Pipeline.pin (pcfgs (F := F)) adm p).spec w)))
    (hbody : ∀ c, BodyObligation (pdats m p c) (defs₀ (F := F)) Variants.none () Set.univ)
    (hΦin : ∀ c, (Pipeline.ΦA (Pipeline.pin (pcfgs (F := F)) adm p).spec c : sProp 𝕄) ⊢ (pdats m p c).Φ 0)
    (hΦout : ∀ c, (pdats m p c).Φ (Fin.last (Pipeline.pin (pcfgs (F := F)) adm p).N) ⊢ (Pipeline.ΦA (Pipeline.pin (pcfgs (F := F)) adm p).spec c : sProp 𝕄))
    (harr : ∀ c w, Wout c (Proc.devRef .tc (Pipeline.arrRef (Pipeline.pin (pcfgs (F := F)) adm p).spec w))
      = (pdats m p c).arrAt w (Pipeline.pin (pcfgs (F := F)) adm p).N)
    (hne : ∀ c b, (∀ w, Pipeline.arrRef (Pipeline.pin (pcfgs (F := F)) adm p).spec w ≠ b) → Wout c (Proc.devRef .tc b) = Win c (Proc.devRef .tc b)) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm (pdats m) lf.win lf.arr_whole c
      (hshare c) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun x _ => Or.inl (hrec c x)
      rw [howed]; iexact HO
    isplitl [Hp]; · iexact Hp
    iexact Hrest
  hin c := by
    have h := hΦin c
    unfold Pipeline.ΦA at h
    iintro ⟨Hp, -, Hr⟩
    iapply h
    isplitl [Hr]; · iexact Hr
    iexact Hp
  hout c := by
    rw [Pipeline.ownSems0_none]
    have h := hΦout c
    unfold Pipeline.ΦA at h
    iintro HPhi
    ihave H := h $$ HPhi
    icases H with ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) (hshare c) (fun b => Win c b) (fun b => Wout c b)
      ((pdats m p c).arrAt · (Pipeline.pin (pcfgs (F := F)) adm p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

set_option backward.isDefEq.respectTransparency.types false in
def reg0 : Pipeline.RegionSeg (pcfgs (F := F)) adm (pdats m) () defs₀ 𝒱₀ L lv 0 :=
  mkReg m 0 launch0 (W7 m) (W8 m) (fun c => (pdats m 0 c).share_full fun _ => rfl) (fun _ _ => rfl) (fun _ _ => trivial) (fun _ _ => rfl)
    (body_obligation0 (V7 m)) (Phi_in0 (F := F) (V7 m)) (Phi_out0 (F := F) (V7 m)) (W8_arr m) (W8_of_ne m)
set_option backward.isDefEq.respectTransparency.types false in
def reg1 : Pipeline.RegionSeg (pcfgs (F := F)) adm (pdats m) () defs₀ 𝒱₀ L lv 1 :=
  mkReg m 1 launch1 (W8 m) (W9 m) (fun c => (pdats m 1 c).share_full fun _ => rfl) (fun _ _ => rfl) (fun _ _ => trivial) (fun _ _ => rfl)
    (body_obligation1 (V8 m)) (Phi_in1 (F := F) (V8 m)) (Phi_out1 (F := F) (V8 m)) (W9_arr m) (W9_of_ne m)
set_option backward.isDefEq.respectTransparency.types false in
def reg2 : Pipeline.RegionSeg (pcfgs (F := F)) adm (pdats m) () defs₀ 𝒱₀ L lv 2 :=
  mkReg m 2 launch2 (W9 m) (W10 m) (fun c => (pdats m 2 c).share_full fun _ => rfl) (fun _ _ => rfl) (fun _ _ => trivial) (fun _ _ => rfl)
    (body_obligation2 (V9 m)) (Phi_in2 (F := F) (V9 m)) (Phi_out2 (F := F) (V9 m)) (W10_arr m) (W10_of_ne m)
set_option backward.isDefEq.respectTransparency.types false in
def reg3 : Pipeline.RegionSeg (pcfgs (F := F)) adm (pdats m) () defs₀ 𝒱₀ L lv 3 :=
  mkReg m 3 launch3 (W11 m) (W12 m) (fun c => (pdats m 3 c).share_full fun _ => rfl) (fun _ _ => rfl) (fun _ _ => trivial) (fun _ _ => rfl)
    (body_obligation3 (V11 m)) (Phi_in3 (F := F) (V11 m)) (Phi_out3 (F := F) (V11 m)) (W12_arr m) (W12_of_ne m)
set_option backward.isDefEq.respectTransparency.types false in
def reg4 : Pipeline.RegionSeg (pcfgs (F := F)) adm (pdats m) () defs₀ 𝒱₀ L lv 4 :=
  mkReg m 4 launch4 (W12 m) (W13 m) (fun c => (pdats m 4 c).share_full fun _ => rfl) (fun _ _ => rfl) (fun _ _ => trivial) (fun _ _ => rfl)
    (body_obligation4 (V12 m)) (Phi_in4 (F := F) (V12 m)) (Phi_out4 (F := F) (V12 m)) (W13_arr m) (W13_of_ne m)
set_option backward.isDefEq.respectTransparency.types false in
def reg5 : Pipeline.RegionSeg (pcfgs (F := F)) adm (pdats m) () defs₀ 𝒱₀ L lv 5 :=
  mkReg m 5 launch5 (W13 m) (W14 m) (fun c => (pdats m 5 c).share_full fun _ => rfl) (fun _ _ => rfl) (fun _ _ => trivial) (fun _ _ => rfl)
    (body_obligation5 (V13 m)) (Phi_in5 (F := F) (V13 m)) (Phi_out5 (F := F) (V13 m)) (W14_arr m) (W14_of_ne m)

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .host (hseg hostOps0_5 hostOps0_5_sub hostOps0_5_fresh (W5 m)),
    .host (hseg hostOps0_6 hostOps0_6_sub hostOps0_6_fresh (W6 m)),
    .region (reg0 m),
    .region (reg1 m),
    .region (reg2 m),
    .host (hseg hostOps3 hostOps3_sub hostOps3_fresh (W10 m)),
    .region (reg3 m),
    .region (reg4 m),
    .region (reg5 m) ]

set_option backward.isDefEq.respectTransparency.types false in
theorem run (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W14 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          Prog.lift (.customCall (Pipeline.entry 5) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m c b)
    (hfin := fun c s' => by
      iintro ⟨⟨Hh, -⟩, HSI⟩
      unfold StableHlo.held
      imodintro
      iapply (pointsTo_read_all (Pipeline.ucRefs τ sig) (fun b => (((c : Thread nD τ)).1, b)) (W14 m c) s')
      isplitl [Hh] <;> iassumption)
    (hQ := fun s h c => h c)

theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c _ (mem_uc main_arg0 (by decide))).trans (W14_main_arg0 m c),
    (h c _ (mem_uc main_arg1 (by decide))).trans (W14_main_arg1 m c),
    (h c _ (mem_uc main_arg2 (by decide))).trans (W14_main_arg2 m c),
    (h c _ (mem_uc main_arg3 (by decide))).trans (W14_main_arg3 m c),
    (h c _ (mem_uc main_arg4 (by decide))).trans (W14_main_arg4 m c),
    (h c _ (mem_uc main_arg5 (by decide))).trans (W14_main_arg5 m c)⟩) (run m ρ)

end Cert.KernelIdeal.Hand

end
-- ==== Proof.Ref.Stages.lean ====
import proofs.«133651_j30339648979593_1_alg».proof.Proof.Gen.ReferenceIdeal
import Idealize.ShloMosaic.PureOps.Ideal

noncomputable section

namespace Cert.ReferenceIdeal.RefValue

open Cert.ReferenceIdeal Cert.ReferenceIdeal.Gen Idealize.ShloMosaic Idealize.SL.Sem

def srcOf (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
     ⟨S100000, iotaInDim S100000 32 0⟩] concatenates_S1600000_S100000_S1700000_d0

def dstOf (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
     ⟨S100000, iotaInDim S100000 32 0⟩] concatenates_S1600000_S100000_S1700000_d0

def normIdx (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

def colOf (s : IVec S1700000 32) : IVec S1700000x1 32 :=
  broadcastInDim S1700000x1 ![0] bcast_S1700000_S1700000x1_0 s

def degOf (ei : IVec S2x1600000 32) : FVec Ideal S100000 .f32 :=
  Host.scatterAdd (F := Ideal) scatter_S100000_S1700000x1_S1700000_n_0_0_1
    (broadcastInDim S100000 ![] bcast_S_S100000 (constant (F := Ideal) S_ .f32 0x00000000#32))
    (colOf (srcOf ei))
    (broadcastInDim S1700000 ![] bcast_S_S1700000 (constant (F := Ideal) S_ .f32 0x3F800000#32))

def dinvOf (ei : IVec S2x1600000 32) : FVec Ideal S100000 .f32 :=
  Host.rsqrt (F := Ideal) (degOf ei)

def normOf (ei : IVec S2x1600000 32) : FVec Ideal S1700000 .f32 :=
  mulf (F := Ideal)
    (Host.gather gather_S100000_S1700000x1_S1700000_n_0_n_n_0_1_1 (dinvOf ei) (colOf (normIdx (srcOf ei))))
    (Host.gather gather_S100000_S1700000x1_S1700000_n_0_n_n_0_1_1 (dinvOf ei) (colOf (normIdx (dstOf ei))))

def lin1 (x : FVec Ideal S100000x128 .f32) (W1 : FVec Ideal S64x128 .f32) (b1 : FVec Ideal S64 .f32) :
    FVec Ideal S100000x64 .f32 :=
  addf (F := Ideal)
    (Host.dotGeneral (F := Ideal) dot_S100000x128_S128x64_S100000x64_1_0_0_1_n_n none x
      (transpose S128x64 [1, 0] W1 transposes_S64x128_S128x64_1_0))
    (broadcastInDim S100000x64 ![0, 1] bcast_S1x64_S100000x64_0_1 (broadcastInDim S1x64 ![1] bcast_S64_S1x64_1 b1))

def lin2 (h : FVec Ideal S100000x64 .f32) (W2 : FVec Ideal S40x64 .f32) (b2 : FVec Ideal S40 .f32) :
    FVec Ideal S100000x40 .f32 :=
  addf (F := Ideal)
    (Host.dotGeneral (F := Ideal) dot_S100000x64_S64x40_S100000x40_1_0_0_1_n_n none h
      (transpose S64x40 [1, 0] W2 transposes_S40x64_S64x40_1_0))
    (broadcastInDim S100000x40 ![0, 1] bcast_S1x40_S100000x40_0_1 (broadcastInDim S1x40 ![1] bcast_S40_S1x40_1 b2))

def layer64 (ei : IVec S2x1600000 32) (h : FVec Ideal S100000x64 .f32) : FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (colOf (dstOf ei))
    (mulf (F := Ideal)
      (broadcastInDim S1700000x64 ![0, 1] bcast_S1700000x1_S1700000x64_0_1
        (broadcastInDim S1700000x1 ![0] bcast_S1700000_S1700000x1_0 (normOf ei)))
      (Host.gather gather_S100000x64_S1700000x1_S1700000x64_1_0_n_n_0_1_164 h (colOf (normIdx (srcOf ei)))))

def layer40 (ei : IVec S2x1600000 32) (h : FVec Ideal S100000x40 .f32) : FVec Ideal S100000x40 .f32 :=
  Host.scatterAdd (F := Ideal) scatter_S100000x40_S1700000x1_S1700000x40_1_0_0_1
    (broadcastInDim S100000x40 ![] bcast_S_S100000x40 (constant (F := Ideal) S_ .f32 0x00000000#32))
    (colOf (dstOf ei))
    (mulf (F := Ideal)
      (broadcastInDim S1700000x40 ![0, 1] bcast_S1700000x1_S1700000x40_0_1
        (broadcastInDim S1700000x1 ![0] bcast_S1700000_S1700000x1_0 (normOf ei)))
      (Host.gather gather_S100000x40_S1700000x1_S1700000x40_1_0_n_n_0_1_140 h (colOf (normIdx (srcOf ei)))))

def relu (h : FVec Ideal S100000x64 .f32) : FVec Ideal S100000x64 .f32 :=
  maximumf (F := Ideal) h (broadcastInDim S100000x64 ![] bcast_S_S100000x64 (constant (F := Ideal) S_ .f32 0x00000000#32))

def rowMax (h : FVec Ideal S100000x40 .f32) : FVec Ideal S100000 .f32 :=
  maximumf (F := Ideal)
    (broadcastInDim S100000 ![] bcast_S_S100000 (constant (F := Ideal) S_ .f32 0xFF800000#32))
    (Host.reduce FloatOps.maximumf h (constant (F := Ideal) S_ .f32 0xFF800000#32) reducesTo_S100000x40_S100000_d1 h_S_)

def shifted (h : FVec Ideal S100000x40 .f32) : FVec Ideal S100000x40 .f32 :=
  subf (F := Ideal) h
    (broadcastInDim S100000x40 ![0, 1] bcast_S100000x1_S100000x40_0_1
      (broadcastInDim S100000x1 ![0] bcast_S100000_S100000x1_0 (rowMax h)))

def rowSumExp (h : FVec Ideal S100000x40 .f32) : FVec Ideal S100000 .f32 :=
  Host.reduceAdd (F := Ideal) (Host.exp (F := Ideal) (shifted h)) (constant (F := Ideal) S_ .f32 0x00000000#32)
    reducesTo_S100000x40_S100000_d1 h_S_

def logSoftmax (h : FVec Ideal S100000x40 .f32) : FVec Ideal S100000x40 .f32 :=
  subf (F := Ideal) (shifted h)
    (broadcastInDim S100000x40 ![0, 1] bcast_S100000x1_S100000x40_0_1
      (Host.log (F := Ideal) (broadcastInDim S100000x1 ![0] bcast_S100000_S100000x1_0 (rowSumExp h))))

def refOut (x : FVec Ideal S100000x128 .f32) (W1 : FVec Ideal S64x128 .f32) (b1 : FVec Ideal S64 .f32)
    (W2 : FVec Ideal S40x64 .f32) (b2 : FVec Ideal S40 .f32) (ei : IVec S2x1600000 32) : FVec Ideal S100000x40 .f32 :=
  logSoftmax (layer40 ei (lin2 (relu (layer64 ei (lin1 x W1 b1))) W2 b2))

end Cert.ReferenceIdeal.RefValue

end
-- ==== Proof.Ref.RunClose.lean ====
import proofs.«133651_j30339648979593_1_alg».proof.Proof.Gen.ReferenceIdeal
import proofs.«133651_j30339648979593_1_alg».proof.Proof.Ref.Stages
import Idealize.ShloMosaic.Lib.StableHlo.Run

set_option maxRecDepth 16384

noncomputable section

namespace Cert.ReferenceIdeal.RefValue

open Cert.ReferenceIdeal Cert.ReferenceIdeal.Gen Idealize.ShloMosaic Idealize.ShloMosaic.TcCoe Idealize.SL.Sem Idealize.ShloMosaic.StableHlo

section Lists
variable {F : FTy → Type} [FloatOps F]

abbrev opsA : List (HloOp τ sig (Elt F)) :=
  [ nullary main_v0 (iotaInDim S100000 32 0),
    unary main_arg5 main_v1 (extractStridedSlice S1x1600000 ![0, 0] · slices_S2x1600000_S1x1600000_0_0),
    reshape main_v1 main_v2 rfl shapeCasts_S1x1600000_S1600000,
    binary main_v2 main_v0 main_v3 (fun a b => concatenate S1700000 0 [⟨S1600000, a⟩, ⟨S100000, b⟩] concatenates_S1600000_S100000_S1700000_d0),
    unary main_arg5 main_v4 (extractStridedSlice S1x1600000 ![1, 0] · slices_S2x1600000_S1x1600000_1_0),
    reshape main_v4 main_v5 rfl shapeCasts_S1x1600000_S1600000,
    binary main_v5 main_v0 main_v6 (fun a b => concatenate S1700000 0 [⟨S1600000, a⟩, ⟨S100000, b⟩] concatenates_S1600000_S100000_S1700000_d0),
    unary main_arg1 main_v7 (transpose S128x64 [1, 0] · transposes_S64x128_S128x64_1_0),
    binary main_arg0 main_v7 main_v8 (fun l r => Host.dotGeneral dot_S100000x128_S128x64_S100000x64_1_0_0_1_n_n none l r),
    unary main_arg2 main_v9 (broadcastInDim S1x64 ![1] bcast_S64_S1x64_1),
    unary main_v9 main_v10 (broadcastInDim S100000x64 ![0, 1] bcast_S1x64_S100000x64_0_1),
    binary main_v8 main_v10 main_v11 addf ]

abbrev opsB : List (HloOp τ sig (Elt F)) :=
  [ nullary main_cst (constant S_ .f32 0x3F800000#32),
    unary main_cst main_v12 (broadcastInDim S1700000 ![] bcast_S_S1700000),
    nullary main_cst_0 (constant S_ .f32 0x00000000#32),
    unary main_cst_0 main_v13 (broadcastInDim S100000 ![] bcast_S_S100000),
    unary main_v3 main_v14 (broadcastInDim S1700000x1 ![0] bcast_S1700000_S1700000x1_0),
    ternary main_v13 main_v14 main_v12 main_v15 (fun x i u => Host.scatterAdd scatter_S100000_S1700000x1_S1700000_n_0_0_1 x i u),
    unary main_v15 main_v16 Host.rsqrt,
    nullary main_c (constantI S_ 32 0#32),
    unary main_c main_v17 (broadcastInDim S1700000 ![] bcast_S_S1700000),
    binary main_v3 main_v17 main_v18 (cmpi .slt),
    nullary main_c_1 (constantI S_ 32 100000#32),
    unary main_c_1 main_v19 (broadcastInDim S1700000 ![] bcast_S_S1700000),
    binary main_v3 main_v19 main_v20 addi,
    ternary main_v18 main_v20 main_v3 main_v21 select,
    unary main_v21 main_v22 (broadcastInDim S1700000x1 ![0] bcast_S1700000_S1700000x1_0),
    binary main_v16 main_v22 main_v23 (fun x i => Host.gather gather_S100000_S1700000x1_S1700000_n_0_n_n_0_1_1 x i),
    nullary main_c_2 (constantI S_ 32 0#32),
    unary main_c_2 main_v24 (broadcastInDim S1700000 ![] bcast_S_S1700000),
    binary main_v6 main_v24 main_v25 (cmpi .slt),
    nullary main_c_3 (constantI S_ 32 100000#32),
    unary main_c_3 main_v26 (broadcastInDim S1700000 ![] bcast_S_S1700000),
    binary main_v6 main_v26 main_v27 addi,
    ternary main_v25 main_v27 main_v6 main_v28 select,
    unary main_v28 main_v29 (broadcastInDim S1700000x1 ![0] bcast_S1700000_S1700000x1_0),
    binary main_v16 main_v29 main_v30 (fun x i => Host.gather gather_S100000_S1700000x1_S1700000_n_0_n_n_0_1_1 x i),
    binary main_v23 main_v30 main_v31 mulf ]

abbrev opsC : List (HloOp τ sig (Elt F)) :=
  [ unary main_v31 main_v32 (broadcastInDim S1700000x1 ![0] bcast_S1700000_S1700000x1_0),
    nullary main_c_4 (constantI S_ 32 0#32),
    unary main_c_4 main_v33 (broadcastInDim S1700000 ![] bcast_S_S1700000),
    binary main_v3 main_v33 main_v34 (cmpi .slt),
    nullary main_c_5 (constantI S_ 32 100000#32),
    unary main_c_5 main_v35 (broadcastInDim S1700000 ![] bcast_S_S1700000),
    binary main_v3 main_v35 main_v36 addi,
    ternary main_v34 main_v36 main_v3 main_v37 select,
    unary main_v37 main_v38 (broadcastInDim S1700000x1 ![0] bcast_S1700000_S1700000x1_0),
    binary main_v11 main_v38 main_v39 (fun x i => Host.gather gather_S100000x64_S1700000x1_S1700000x64_1_0_n_n_0_1_164 x i),
    unary main_v32 main_v40 (broadcastInDim S1700000x64 ![0, 1] bcast_S1700000x1_S1700000x64_0_1),
    binary main_v40 main_v39 main_v41 mulf,
    nullary main_cst_6 (constant S_ .f32 0x00000000#32),
    unary main_cst_6 main_v42 (broadcastInDim S100000x64 ![] bcast_S_S100000x64),
    unary main_v6 main_v43 (broadcastInDim S1700000x1 ![0] bcast_S1700000_S1700000x1_0),
    ternary main_v42 main_v43 main_v41 main_v44 (fun x i u => Host.scatterAdd scatter_S100000x64_S1700000x1_S1700000x64_1_0_0_1 x i u) ]

abbrev opsD : List (HloOp τ sig (Elt F)) :=
  [ TRef.nullary main_call0.cst (constant S_ .f32 0x00000000#32),
    TRef.unary main_call0.cst main_call0.v0 (broadcastInDim S100000x64 ![] bcast_S_S100000x64),
    TRef.binary (TRef.of (T := ⟨S100000x64, .f32⟩) main_v44) main_call0.v0 main_call0.v1 maximumf,
    unary main_arg3 main_v46 (transpose S64x40 [1, 0] · transposes_S40x64_S64x40_1_0),
    binary main_v45 main_v46 main_v47 (fun l r => Host.dotGeneral dot_S100000x64_S64x40_S100000x40_1_0_0_1_n_n none l r),
    unary main_arg4 main_v48 (broadcastInDim S1x40 ![1] bcast_S40_S1x40_1),
    unary main_v48 main_v49 (broadcastInDim S100000x40 ![0, 1] bcast_S1x40_S100000x40_0_1),
    binary main_v47 main_v49 main_v50 addf ]

abbrev opsF : List (HloOp τ sig (Elt F)) :=
  [ nullary main_cst_7 (constant S_ .f32 0x3F800000#32),
    unary main_cst_7 main_v51 (broadcastInDim S1700000 ![] bcast_S_S1700000),
    nullary main_cst_8 (constant S_ .f32 0x00000000#32),
    unary main_cst_8 main_v52 (broadcastInDim S100000 ![] bcast_S_S100000),
    unary main_v3 main_v53 (broadcastInDim S1700000x1 ![0] bcast_S1700000_S1700000x1_0),
    ternary main_v52 main_v53 main_v51 main_v54 (fun x i u => Host.scatterAdd scatter_S100000_S1700000x1_S1700000_n_0_0_1 x i u),
    unary main_v54 main_v55 Host.rsqrt,
    nullary main_c_9 (constantI S_ 32 0#32),
    unary main_c_9 main_v56 (broadcastInDim S1700000 ![] bcast_S_S1700000),
    binary main_v3 main_v56 main_v57 (cmpi .slt),
    nullary main_c_10 (constantI S_ 32 100000#32),
    unary main_c_10 main_v58 (broadcastInDim S1700000 ![] bcast_S_S1700000),
    binary main_v3 main_v58 main_v59 addi,
    ternary main_v57 main_v59 main_v3 main_v60 select,
    unary main_v60 main_v61 (broadcastInDim S1700000x1 ![0] bcast_S1700000_S1700000x1_0),
    binary main_v55 main_v61 main_v62 (fun x i => Host.gather gather_S100000_S1700000x1_S1700000_n_0_n_n_0_1_1 x i),
    nullary main_c_11 (constantI S_ 32 0#32),
    unary main_c_11 main_v63 (broadcastInDim S1700000 ![] bcast_S_S1700000),
    binary main_v6 main_v63 main_v64 (cmpi .slt),
    nullary main_c_12 (constantI S_ 32 100000#32),
    unary main_c_12 main_v65 (broadcastInDim S1700000 ![] bcast_S_S1700000),
    binary main_v6 main_v65 main_v66 addi,
    ternary main_v64 main_v66 main_v6 main_v67 select,
    unary main_v67 main_v68 (broadcastInDim S1700000x1 ![0] bcast_S1700000_S1700000x1_0),
    binary main_v55 main_v68 main_v69 (fun x i => Host.gather gather_S100000_S1700000x1_S1700000_n_0_n_n_0_1_1 x i),
    binary main_v62 main_v69 main_v70 mulf ]

abbrev opsG : List (HloOp τ sig (Elt F)) :=
  [ unary main_v70 main_v71 (broadcastInDim S1700000x1 ![0] bcast_S1700000_S1700000x1_0),
    nullary main_c_13 (constantI S_ 32 0#32),
    unary main_c_13 main_v72 (broadcastInDim S1700000 ![] bcast_S_S1700000),
    binary main_v3 main_v72 main_v73 (cmpi .slt),
    nullary main_c_14 (constantI S_ 32 100000#32),
    unary main_c_14 main_v74 (broadcastInDim S1700000 ![] bcast_S_S1700000),
    binary main_v3 main_v74 main_v75 addi,
    ternary main_v73 main_v75 main_v3 main_v76 select,
    unary main_v76 main_v77 (broadcastInDim S1700000x1 ![0] bcast_S1700000_S1700000x1_0),
    binary main_v50 main_v77 main_v78 (fun x i => Host.gather gather_S100000x40_S1700000x1_S1700000x40_1_0_n_n_0_1_140 x i),
    unary main_v71 main_v79 (broadcastInDim S1700000x40 ![0, 1] bcast_S1700000x1_S1700000x40_0_1),
    binary main_v79 main_v78 main_v80 mulf,
    nullary main_cst_15 (constant S_ .f32 0x00000000#32),
    unary main_cst_15 main_v81 (broadcastInDim S100000x40 ![] bcast_S_S100000x40),
    unary main_v6 main_v82 (broadcastInDim S1700000x1 ![0] bcast_S1700000_S1700000x1_0),
    ternary main_v81 main_v82 main_v80 main_v83 (fun x i u => Host.scatterAdd scatter_S100000x40_S1700000x1_S1700000x40_1_0_0_1 x i u) ]

abbrev Lmax : FVec F S100000x40 .f32 → FVec F S_ .f32 → FVec F S100000 .f32 :=
  fun x v => Host.reduce FloatOps.maximumf x v reducesTo_S100000x40_S100000_d1 h_S_

abbrev opsH (R : FVec F S100000x40 .f32 → FVec F S_ .f32 → FVec F S100000 .f32) : List (HloOp τ sig (Elt F)) :=
  [ TRef.nullary main_call1.cst (constant S_ .f32 0xFF800000#32),
    TRef.binary (TRef.of (T := ⟨S100000x40, .f32⟩) main_v83) main_call1.cst main_call1.v0 R,
    TRef.nullary main_call1.cst_0 (constant S_ .f32 0xFF800000#32),
    TRef.unary main_call1.cst_0 main_call1.v1 (broadcastInDim S100000 ![] bcast_S_S100000),
    TRef.binary main_call1.v1 main_call1.v0 main_call1.v2 maximumf,
    TRef.unary main_call1.v2 main_call1.v3 (broadcastInDim S100000x1 ![0] bcast_S100000_S100000x1_0),
    TRef.unary main_call1.v3 main_call1.v4 (broadcastInDim S100000x40 ![0, 1] bcast_S100000x1_S100000x40_0_1),
    TRef.binary (TRef.of (T := ⟨S100000x40, .f32⟩) main_v83) main_call1.v4 main_call1.v5 subf,
    TRef.unary main_call1.v5 main_call1.v6 Host.exp,
    TRef.nullary main_call1.cst_1 (constant S_ .f32 0x00000000#32),
    TRef.binary main_call1.v6 main_call1.cst_1 main_call1.v7 (fun x v => Host.reduceAdd x v reducesTo_S100000x40_S100000_d1 h_S_),
    TRef.unary main_call1.v7 main_call1.v8 (broadcastInDim S100000x1 ![0] bcast_S100000_S100000x1_0),
    TRef.unary main_call1.v8 main_call1.v9 Host.log,
    TRef.unary main_call1.v9 main_call1.v10 (broadcastInDim S100000x40 ![0, 1] bcast_S100000x1_S100000x40_0_1),
    TRef.binary main_call1.v5 main_call1.v10 main_call1.v11 subf ]

-- The reference's operations in order: its stretches one after the other.
abbrev opsAll : List (HloOp τ sig (Elt F)) :=
  opsA ++ (opsB ++ (opsC ++ (opsD ++ (opsF ++ (opsG ++ opsH Lmax)))))

-- Running two lists in turn is running their concatenation.
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)
end Lists

variable (V : Valuation τ sig (Elt Ideal)) (R : FVec Ideal S100000x40 .f32 → FVec Ideal S_ .f32 → FVec Ideal S100000 .f32)

def degG (s : IVec S1700000 32) : FVec Ideal S100000 .f32 :=
  Host.scatterAdd (F := Ideal) scatter_S100000_S1700000x1_S1700000_n_0_0_1
    (broadcastInDim S100000 ![] bcast_S_S100000 (constant (F := Ideal) S_ .f32 0x00000000#32))
    (colOf s)
    (broadcastInDim S1700000 ![] bcast_S_S1700000 (constant (F := Ideal) S_ .f32 0x3F800000#32))

def normG (s d : IVec S1700000 32) : FVec Ideal S1700000 .f32 :=
  mulf (F := Ideal)
    (Host.gather gather_S100000_S1700000x1_S1700000_n_0_n_n_0_1_1 (Host.rsqrt (F := Ideal) (degG s)) (colOf (normIdx s)))
    (Host.gather gather_S100000_S1700000x1_S1700000_n_0_n_n_0_1_1 (Host.rsqrt (F := Ideal) (degG s)) (colOf (normIdx d)))

theorem normOf_eq (ei : IVec S2x1600000 32) : normOf ei = normG (srcOf ei) (dstOf ei) := rfl

def layer64G (s d : IVec S1700000 32) (nrm : FVec Ideal S1700000 .f32) (h : FVec Ideal S100000x64 .f32) :
    FVec Ideal S100000x64 .f32 :=
  Host.scatterAdd (F := Ideal) scatter_S100000x64_S1700000x1_S1700000x64_1_0_0_1
    (broadcastInDim S100000x64 ![] bcast_S_S100000x64 (constant (F := Ideal) S_ .f32 0x00000000#32))
    (colOf d)
    (mulf (F := Ideal)
      (broadcastInDim S1700000x64 ![0, 1] bcast_S1700000x1_S1700000x64_0_1
        (broadcastInDim S1700000x1 ![0] bcast_S1700000_S1700000x1_0 nrm))
      (Host.gather gather_S100000x64_S1700000x1_S1700000x64_1_0_n_n_0_1_164 h (colOf (normIdx s))))

theorem layer64_eq (ei : IVec S2x1600000 32) (h : FVec Ideal S100000x64 .f32) :
    layer64 ei h = layer64G (srcOf ei) (dstOf ei) (normOf ei) h := rfl

def layer40G (s d : IVec S1700000 32) (nrm : FVec Ideal S1700000 .f32) (h : FVec Ideal S100000x40 .f32) :
    FVec Ideal S100000x40 .f32 :=
  Host.scatterAdd (F := Ideal) scatter_S100000x40_S1700000x1_S1700000x40_1_0_0_1
    (broadcastInDim S100000x40 ![] bcast_S_S100000x40 (constant (F := Ideal) S_ .f32 0x00000000#32))
    (colOf d)
    (mulf (F := Ideal)
      (broadcastInDim S1700000x40 ![0, 1] bcast_S1700000x1_S1700000x40_0_1
        (broadcastInDim S1700000x1 ![0] bcast_S1700000_S1700000x1_0 nrm))
      (Host.gather gather_S100000x40_S1700000x1_S1700000x40_1_0_n_n_0_1_140 h (colOf (normIdx s))))

theorem layer40_eq (ei : IVec S2x1600000 32) (h : FVec Ideal S100000x40 .f32) :
    layer40 ei h = layer40G (srcOf ei) (dstOf ei) (normOf ei) h := rfl

theorem stageA_src : after opsA V main_v3 = srcOf (V main_arg5) := by
  after_results
  rfl
theorem stageA_dst : after opsA V main_v6 = dstOf (V main_arg5) := by
  after_results
  rfl
theorem stageA_lin :
    after opsA V main_v11 = lin1 (V main_arg0) (V main_arg1) (V main_arg2) := by
  after_results
  rfl
theorem stageB :
    after opsB V main_v31 = normG (V main_v3) (V main_v6) := by
  after_results_simp
  rfl
theorem stageC :
    after opsC V main_v44 = layer64G (V main_v3) (V main_v6) (V main_v31) (V main_v11) := by
  after_results_simp
  rfl
theorem stageD :
    after opsD V main_v50 = lin2 (relu (V main_v44)) (V main_arg3) (V main_arg4) := by
  after_results
  rfl

theorem stageF :
    after opsF V main_v70 = normG (V main_v3) (V main_v6) := by
  after_results_simp
  rfl
theorem stageG :
    after opsG V main_v83 = layer40G (V main_v3) (V main_v6) (V main_v70) (V main_v50) := by
  after_results_simp
  rfl

theorem carryA_main_arg3 : after opsA V main_arg3 = V main_arg3 := by
  after_results

theorem carryA_main_arg4 : after opsA V main_arg4 = V main_arg4 := by
  after_results

theorem carryB_main_v3 : after opsB V main_v3 = V main_v3 := by
  after_results

theorem carryB_main_v6 : after opsB V main_v6 = V main_v6 := by
  after_results

theorem carryB_main_v11 : after opsB V main_v11 = V main_v11 := by
  after_results

theorem carryB_main_arg3 : after opsB V main_arg3 = V main_arg3 := by
  after_results

theorem carryB_main_arg4 : after opsB V main_arg4 = V main_arg4 := by
  after_results

theorem carryC_main_v3 : after opsC V main_v3 = V main_v3 := by
  after_results

theorem carryC_main_v6 : after opsC V main_v6 = V main_v6 := by
  after_results

theorem carryC_main_arg3 : after opsC V main_arg3 = V main_arg3 := by
  after_results

theorem carryC_main_arg4 : after opsC V main_arg4 = V main_arg4 := by
  after_results

theorem carryD_main_v3 : after opsD V main_v3 = V main_v3 := by
  after_results

theorem carryD_main_v6 : after opsD V main_v6 = V main_v6 := by
  after_results

theorem carryF_main_v3 : after opsF V main_v3 = V main_v3 := by
  after_results

theorem carryF_main_v6 : after opsF V main_v6 = V main_v6 := by
  after_results

theorem carryF_main_v50 : after opsF V main_v50 = V main_v50 := by
  after_results

-- The row-wise log-softmax over any function R that reduces a row to one entry.
def lsmG (h : FVec Ideal S100000x40 .f32) : FVec Ideal S100000x40 .f32 :=
  let s := subf (F := Ideal) h
    (broadcastInDim S100000x40 ![0, 1] bcast_S100000x1_S100000x40_0_1
      (broadcastInDim S100000x1 ![0] bcast_S100000_S100000x1_0
        (maximumf (F := Ideal) (broadcastInDim S100000 ![] bcast_S_S100000 (constant (F := Ideal) S_ .f32 0xFF800000#32))
          (R h (constant (F := Ideal) S_ .f32 0xFF800000#32)))))
  subf (F := Ideal) s
    (broadcastInDim S100000x40 ![0, 1] bcast_S100000x1_S100000x40_0_1
      (Host.log (F := Ideal) (broadcastInDim S100000x1 ![0] bcast_S100000_S100000x1_0
        (Host.reduceAdd (F := Ideal) (Host.exp (F := Ideal) s) (constant (F := Ideal) S_ .f32 0x00000000#32)
          reducesTo_S100000x40_S100000_d1 h_S_))))

theorem stageH : after (opsH R) V main_v84 = lsmG R (V main_v83) := by
  after_results
  rfl

-- Each stretch computes one stage from what the stretches before it left; composed, the stages are the reference.
theorem after_ops_result :
    after opsAll V main_v84
      = refOut (V main_arg0) (V main_arg1) (V main_arg2) (V main_arg3)
          (V main_arg4) (V main_arg5) := by
  rw [after_app, after_app, after_app, after_app, after_app, after_app]
  rw [stageH, stageG]
  rw [stageF, carryF_main_v3, carryF_main_v6, carryF_main_v50]
  rw [stageD, carryD_main_v3, carryD_main_v6]
  rw [stageC, carryC_main_v3, carryC_main_v6, carryC_main_arg3, carryC_main_arg4]
  rw [stageB, carryB_main_v3, carryB_main_v6, carryB_main_v11, carryB_main_arg3, carryB_main_arg4]
  rw [stageA_src, stageA_dst, stageA_lin, carryA_main_arg3, carryA_main_arg4]
  rw [← normOf_eq, ← layer64_eq, ← layer40_eq]
  rfl

end Cert.ReferenceIdeal.RefValue

end
-- ==== Proof.Ref.Run.lean ====
import proofs.«133651_j30339648979593_1_alg».proof.Defs
import proofs.«133651_j30339648979593_1_alg».proof.Proof.Ref.RunClose
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

section Generic
variable {F : FTy → Type} [FloatOps F]

set_option maxRecDepth 8192 in
set_option maxHeartbeats 4000000 in

theorem main_eq (c : Dev nD) : main (F := F) c = seq opsAll := rfl

theorem scopedRefs_eq : (Finset.univ.filter fun b : Ref sig .tc => b.isScoped) = ∅ := by decide

theorem scopedSems_eq : (Finset.univ.filter fun sm : SemLoc sig => sm.isScoped .tc) = ∅ := by decide
set_option maxRecDepth 8192 in

theorem ops_sub : (opsAll : List (HloOp τ sig (Elt F))).Forall fun op => op.bufs ⊆ tcRefs τ sig := by
  simp only [opsAll, opsA, opsB, opsC, opsD, opsF, opsG, opsH, List.cons_append, List.nil_append, List.forall_cons, List.Forall,
    nullary_bufs_sub, unary_bufs_sub, binary_bufs_sub, ternary_bufs_sub, reshape_bufs_sub, and_self]

end Generic

set_option maxRecDepth 8192 in
set_option maxHeartbeats 47600000 in

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v84)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => by
      refine ⟨(h c _).trans (after_ops_result _), (h c _).trans ?_, (h c _).trans ?_, (h c _).trans ?_,
        (h c _).trans ?_, (h c _).trans ?_, (h c _).trans ?_⟩ <;> (simp only [after_app]; after_results_simp))
    (run_seq scopedRefs_eq scopedSems_eq defs main (fun _ => opsAll) main_eq (fun _ => ops_sub) m ρ)

theorem frame_ri [Cert.Pre_finite_inputs.Facts] : Cert.frame_ReferenceIdeal := fun m ρ _ =>
  (θ_run Cert.ReferenceIdeal.defs _ _).mono (fun _ h c => (h c).2) (run_ref m ρ)

end Cert.ReferenceIdeal.RefValue

end
-- ==== Proof.KI.Spec.lean ====
import proofs.«133651_j30339648979593_1_alg».proof.KernelIdeal
import Idealize.ShloMosaic.Lib.ValueIdx
import Idealize.ShloMosaic.PureOps.Ideal

noncomputable section

open scoped BigOperators

namespace Cert.KernelIdeal.Hand

open Idealize.ShloMosaic Idealize.ShloMosaic.ValueIdx
open Cert.KernelIdeal

def gatSpec1 (src : S1703936.Idx → BitVec 32) (nrm : S1703936.Idx → EReal) (h : S100000x64.Idx → EReal) :
    S1703936x64.Idx → EReal :=
  fun i => (∑ n : Fin 100000, (if src (ix1 (i 0 : Fin 1703936)) = BitVec.ofNat 32 n.val then (1 : EReal) else 0)
    * h (ix2 n (i 1 : Fin 64))) * nrm (ix1 (i 0 : Fin 1703936))

def gatSpec4 (src : S1703936.Idx → BitVec 32) (nrm : S1703936.Idx → EReal) (h : S100000x40.Idx → EReal) :
    S1703936x40.Idx → EReal :=
  fun i => (∑ n : Fin 100000, (if src (ix1 (i 0 : Fin 1703936)) = BitVec.ofNat 32 n.val then (1 : EReal) else 0)
    * h (ix2 n (i 1 : Fin 40))) * nrm (ix1 (i 0 : Fin 1703936))

def segSum2 (dst : S1703936.Idx → BitVec 32) (msg : S1703936x64.Idx → EReal) : S100000x64.Idx → EReal :=
  fun i => ∑ e : Fin 1703936, (if BitVec.ofNat 32 (i 0 : Fin 100000).val = dst (ix1 e) then (1 : EReal) else 0)
    * msg (ix2 e (i 1 : Fin 64))

def segSum5 (dst : S1703936.Idx → BitVec 32) (msg : S1703936x40.Idx → EReal) : S100000x40.Idx → EReal :=
  fun i => ∑ e : Fin 1703936, (if BitVec.ofNat 32 (i 0 : Fin 100000).val = dst (ix1 e) then (1 : EReal) else 0)
    * msg (ix2 e (i 1 : Fin 40))

def rowMax5 (S : S100000x40.Idx → EReal) (r : Fin 100000) : EReal :=
  max (Ideal.ofBits .f32 0xFF800000#32)
    ((Finset.univ : Finset (Fin 40)).fold max (Ideal.ofBits .f32 0xFF800000#32) (fun k => S (ix2 r k)))

def lsmSpec5 (S : S100000x40.Idx → EReal) : S100000x40.Idx → EReal :=
  fun i => (S (ix2 (i 0 : Fin 100000) (i 1 : Fin 40)) - rowMax5 S (i 0 : Fin 100000))
    - Ideal.log (0 + ∑ k : Fin 40, Ideal.exp (S (ix2 (i 0 : Fin 100000) k) - rowMax5 S (i 0 : Fin 100000)))

end Cert.KernelIdeal.Hand

end
-- ==== Proof.Ref.Pad.lean ====
import Idealize.ShloMosaic.Lib.ValueIdx
import Idealize.ShloMosaic.Lib.KernelVsHost

noncomputable section

namespace Cert.ReferenceIdeal.RefValue

open Idealize.ShloMosaic Idealize.ShloMosaic.ValueIdx

theorem padTail_apply {α : Type} (x : (⟨1, ![1700000]⟩ : Shape).Idx → α) {u : Shape} (v : u.Idx → α)
    (h : (⟨1, ![1700000]⟩ : Shape).Pads ![0] ![3936] ![0] ⟨1, ![1703936]⟩) (hu : 0 < u.numel) (e : Fin 1703936) :
    pad ⟨1, ![1703936]⟩ ![0] ![3936] ![0] x v h hu (ix1 e)
      = if he : e.val < 1700000 then x (ix1 ⟨e.val, he⟩) else v (Shape.Idx.first hu) := by
  by_cases he : e.val < 1700000
  · rw [dif_pos he]
    exact pad_apply_of_inside ![0] ![3936] ![0] x v h hu (ix1 e) (ix1 ⟨e.val, he⟩) (fun a => match a with
      | ⟨0, _⟩ => by show e.val = 0 + e.val * (0 + 1); omega)
  · rw [dif_neg he]
    exact pad_apply_of_not_inside ![0] ![3936] ![0] x v h hu (ix1 e) (0 : Fin 1) (by
      show ¬(0 ≤ e.val ∧ (e.val - 0) % (0 + 1) = 0 ∧ (e.val - 0) / (0 + 1) < 1700000)
      omega)

end Cert.ReferenceIdeal.RefValue

end
-- ==== Proof.KI.Glue.lean ====
import proofs.«133651_j30339648979593_1_alg».proof.Proof.KI.HostFold
import proofs.«133651_j30339648979593_1_alg».proof.Proof.Gen.KernelIdeal.Regions
import proofs.«133651_j30339648979593_1_alg».proof.Proof.Ref.Stages
import proofs.«133651_j30339648979593_1_alg».proof.Proof.Ref.Pad
import Idealize.ShloMosaic.Lib.StableHlo.Run
import Idealize.ShloMosaic.Lib.ValueIdx
import Idealize.ShloMosaic.Lib.ValueLayout
import Idealize.ShloMosaic.Lib.KernelVsHost
set_option maxRecDepth 16384
noncomputable section
namespace Cert.KernelIdeal.Hand
open Idealize.ShloMosaic Idealize.ShloMosaic.TcCoe Idealize.ShloMosaic.ValueIdx
open Idealize.ShloMosaic.StableHlo (after_of_writes_sub)
open Idealize.SL Idealize.SL.Sem
open Cert.KernelIdeal Cert.KernelIdeal.Gen
open Cert.ReferenceIdeal.RefValue (srcOf dstOf normOf padTail_apply)

variable (m : (ℓ : Loc nD τ sig) → Buf (Elt Ideal) ℓ) (c : Dev nD)

theorem after0_src (V : Valuation τ sig (Elt Ideal)) :
    StableHlo.after hostOps0 V (Proc.devRef .tc main_v3) = srcOf (V (Proc.devRef .tc main_arg5)) := by
  open StableHlo in after_results
  rfl

theorem after0_dst (V : Valuation τ sig (Elt Ideal)) :
    StableHlo.after hostOps0 V (Proc.devRef .tc main_v6) = dstOf (V (Proc.devRef .tc main_arg5)) := by
  open StableHlo in after_results
  rfl

theorem after0_nrm (V : Valuation τ sig (Elt Ideal)) :
    StableHlo.after hostOps0 V (Proc.devRef .tc main_v26) = normOf (V (Proc.devRef .tc main_arg5)) := by
  open StableHlo in after_results_simp
  rfl

theorem after0_c4 (V : Valuation τ sig (Elt Ideal)) :
    StableHlo.after hostOps0 V (Proc.devRef .tc main_c_4) = constantI S_ 32 0#32 := by
  open StableHlo in after_results

theorem after01_v27 (V : Valuation τ sig (Elt Ideal)) (e : Fin 1703936) :
    StableHlo.after hostOps0_1 V (Proc.devRef .tc main_v27) (ix1 e)
      = if h : e.val < 1700000 then V (Proc.devRef .tc main_v3) (ix1 ⟨e.val, h⟩)
        else V (Proc.devRef .tc main_c_4) (Shape.Idx.first h_S_) := by
  open StableHlo in after_results
  exact padTail_apply _ _ pads_S1700000_S1703936_039360 h_S_ e

theorem after03_v28 (V : Valuation τ sig (Elt Ideal)) (e : Fin 1703936) :
    StableHlo.after hostOps0_3 V (Proc.devRef .tc main_v28) (ix1 e)
      = if h : e.val < 1700000 then V (Proc.devRef .tc main_v6) (ix1 ⟨e.val, h⟩)
        else V (Proc.devRef .tc main_c_5) (Shape.Idx.first h_S_) := by
  open StableHlo in after_results
  exact padTail_apply _ _ pads_S1700000_S1703936_039360 h_S_ e

theorem after05_v29 (V : Valuation τ sig (Elt Ideal)) (e : Fin 1703936) :
    StableHlo.after hostOps0_5 V (Proc.devRef .tc main_v29) (ix1 e)
      = if h : e.val < 1700000 then V (Proc.devRef .tc main_v26) (ix1 ⟨e.val, h⟩)
        else sitofp (F := Ideal) .f32 (V (Proc.devRef .tc main_c_6)) (Shape.Idx.first h_S_) := by
  open StableHlo in after_results
  exact padTail_apply _ _ pads_S1700000_S1703936_039360 h_S_ e

-- no operation before the first region writes any of these three arguments
theorem w7_arg {r : Ref sig .tc} (h : r = main_arg0 ∨ r = main_arg3 ∨ r = main_arg4) :
    W7 m c (Proc.devRef .tc r) = m ((c : Thread nD τ).loc r) := by
  rcases h with rfl | rfl | rfl <;> exact
    (after_of_writes_sub _ _ hostOps0_6_writes (by decide)).trans <| (after_of_writes_sub _ _ hostOps0_5_writes (by decide)).trans <|
    (after_of_writes_sub _ _ hostOps0_4_writes (by decide)).trans <| (after_of_writes_sub _ _ hostOps0_3_writes (by decide)).trans <|
    (after_of_writes_sub _ _ hostOps0_2_writes (by decide)).trans <| (after_of_writes_sub _ _ hostOps0_1_writes (by decide)).trans <|
    after_of_writes_sub _ _ hostOps0_writes (by decide)

theorem glue_arg0 : W7 m c (Proc.devRef .tc main_arg0) = m ((c : Thread nD τ).loc main_arg0) := w7_arg m c (.inl rfl)

theorem w7_v27 : W7 m c (Proc.devRef .tc main_v27) = W2 m c (Proc.devRef .tc main_v27) :=
  (after_of_writes_sub _ _ hostOps0_6_writes (by decide)).trans <| (after_of_writes_sub _ _ hostOps0_5_writes (by decide)).trans <|
  (after_of_writes_sub _ _ hostOps0_4_writes (by decide)).trans <| (after_of_writes_sub _ _ hostOps0_3_writes (by decide)).trans <|
  after_of_writes_sub _ _ hostOps0_2_writes (by decide)

theorem w7_v28 : W7 m c (Proc.devRef .tc main_v28) = W4 m c (Proc.devRef .tc main_v28) :=
  (after_of_writes_sub _ _ hostOps0_6_writes (by decide)).trans <| (after_of_writes_sub _ _ hostOps0_5_writes (by decide)).trans <|
  after_of_writes_sub _ _ hostOps0_4_writes (by decide)

theorem w7_v29 : W7 m c (Proc.devRef .tc main_v29) = W6 m c (Proc.devRef .tc main_v29) :=
  after_of_writes_sub _ _ hostOps0_6_writes (by decide)

theorem w3_v6 : W3 m c (Proc.devRef .tc main_v6) = W1 m c (Proc.devRef .tc main_v6) :=
  (after_of_writes_sub _ _ hostOps0_2_writes (by decide)).trans <| after_of_writes_sub _ _ hostOps0_1_writes (by decide)

theorem w5_v26 : W5 m c (Proc.devRef .tc main_v26) = W1 m c (Proc.devRef .tc main_v26) :=
  (after_of_writes_sub _ _ hostOps0_4_writes (by decide)).trans <| (after_of_writes_sub _ _ hostOps0_3_writes (by decide)).trans <|
  (after_of_writes_sub _ _ hostOps0_2_writes (by decide)).trans <| after_of_writes_sub _ _ hostOps0_1_writes (by decide)

theorem w3_c5 : W3 m c (Proc.devRef .tc main_c_5) = constantI S_ 32 0#32 := by
  show StableHlo.after hostOps0_2 (W2 m c) (Proc.devRef .tc main_c_5) = _
  open StableHlo in after_results

theorem w5_c6 : W5 m c (Proc.devRef .tc main_c_6) = constantI S_ 32 0#32 := by
  show StableHlo.after hostOps0_4 (W4 m c) (Proc.devRef .tc main_c_6) = _
  open StableHlo in after_results

theorem glue_src (e : Fin 1703936) :
    (W7 m c (Proc.devRef .tc main_v27)) (ix1 e)
      = if h : e.val < 1700000 then srcOf (m ((c : Thread nD τ).loc main_arg5)) (ix1 ⟨e.val, h⟩) else 0#32 := by
  refine (congrFun (w7_v27 m c) _).trans ((after01_v27 _ e).trans ?_)
  unfold W1; rw [after0_src, after0_c4]; rfl

theorem glue_dst (e : Fin 1703936) :
    (W7 m c (Proc.devRef .tc main_v28)) (ix1 e)
      = if h : e.val < 1700000 then dstOf (m ((c : Thread nD τ).loc main_arg5)) (ix1 ⟨e.val, h⟩) else 0#32 := by
  refine (congrFun (w7_v28 m c) _).trans ((after03_v28 _ e).trans ?_)
  rw [w3_v6, w3_c5]; unfold W1; rw [after0_dst]; rfl

theorem glue_nrm (e : Fin 1703936) :
    (W7 m c (Proc.devRef .tc main_v29)) (ix1 e)
      = if h : e.val < 1700000 then normOf (m ((c : Thread nD τ).loc main_arg5)) (ix1 ⟨e.val, h⟩) else 0 := by
  refine (congrFun (w7_v29 m c) _).trans ((after05_v29 _ e).trans ?_)
  rw [w5_v26, w5_c6]
  show (if h : e.val < 1700000 then StableHlo.after hostOps0 (W0 m c) (Proc.devRef .tc main_v26) (ix1 ⟨e.val, h⟩)
      else Scalar.sitofp (F := Ideal) .f32 0#32) = _
  rw [after0_nrm, sitofp_zero]

theorem glue_w30 (k : Fin 128) (d : Fin 64) :
    (W7 m c (Proc.devRef .tc main_v30)) (ix2 k d) = (m ((c : Thread nD τ).loc main_arg1)) (ix2 d k) := by
  show StableHlo.after hostOps0_6 (W6 m c) (Proc.devRef .tc main_v30) (ix2 k d) = _
  open StableHlo in after_results
  exact transpose_apply [1, 0] _ transposes_S64x128_S128x64_1_0 (ix2 k d) (ix2 d k)
    (fun b => match b with | ⟨0, _⟩ => rfl | ⟨1, _⟩ => rfl)

theorem glue_w31 (d : Fin 64) :
    (W7 m c (Proc.devRef .tc main_v31)) (ix2 (0 : Fin 1) d) = (m ((c : Thread nD τ).loc main_arg2)) (ix1 d) := by
  show StableHlo.after hostOps0_6 (W6 m c) (Proc.devRef .tc main_v31) (ix2 (0 : Fin 1) d) = _
  open StableHlo in after_results
  exact shapeCast_a_1a_apply _ _ (0 : Fin 1) d

theorem glue_w35 (Wx : Valuation τ sig (Elt Ideal)) (k : Fin 64) (d : Fin 40) :
    (StableHlo.after hostOps3 Wx (Proc.devRef .tc main_v35)) (ix2 k d) = (Wx (Proc.devRef .tc main_arg3)) (ix2 d k) := by
  open StableHlo in after_results
  exact transpose_apply [1, 0] _ transposes_S40x64_S64x40_1_0 (ix2 k d) (ix2 d k)
    (fun b => match b with | ⟨0, _⟩ => rfl | ⟨1, _⟩ => rfl)

theorem glue_w36 (Wx : Valuation τ sig (Elt Ideal)) (d : Fin 40) :
    (StableHlo.after hostOps3 Wx (Proc.devRef .tc main_v36)) (ix2 (0 : Fin 1) d) = (Wx (Proc.devRef .tc main_arg4)) (ix1 d) := by
  open StableHlo in after_results
  exact shapeCast_a_1a_apply _ _ (0 : Fin 1) d

end Cert.KernelIdeal.Hand
end
-- ==== Proof.KI.Lin0Value.lean ====
import proofs.«133651_j30339648979593_1_alg».proof.Proof.KI.Lin0
import Idealize.ShloMosaic.Lib.Pipeline.Value
import Idealize.ShloMosaic.Lib.ValueIdx
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

abbrev dotLin0 := dot_S2000x128_S128x64_S2000x64_1_0_0_1_n_n

-- entry (p, q) of the product is the sum over the contracted coordinate k of a (p, k) * b (k, q)
theorem matmulLin0_at (a : FVec Ideal S2000x128 .bf16) (b : FVec Ideal S128x64 .bf16) (p : Fin 2000) (q : Fin 64) :
    matmul dotLin0 none a b (constant (F := Ideal) S2000x64 .f32 0x00000000#32) (ix2 p q) = ∑ k : Fin 128, a (ix2 p k) * b (ix2 k q) := by
  refine (Ideal.matmul_constant_zero_apply dotLin0 none a b (ix2 p q)).trans ?_
  rw [← Equiv.sum_comp (contrEquiv1 dotLin0 128 rfl rfl).symm]
  refine Finset.sum_congr rfl fun c _ => ?_
  have c2 := contrEquiv1_symm_val dotLin0 128 rfl rfl c
  refine congrArg₂ (· * ·) (congrArg a ?_) (congrArg b ?_) <;> funext ax <;> apply Fin.ext <;>
    match ax with
    | ⟨0, _⟩ | ⟨1, _⟩ =>
      simp [DotDims.lhsIdx, DotDims.rhsIdx, dotLin0, dot_S2000x128_S128x64_S2000x64_1_0_0_1_n_n] <;> first | rfl | exact c2

theorem pay0_at (x0 : Vec Ideal S2000x128 .f32) (x1 : Vec Ideal S128x64 .f32) (x2 : Vec Ideal S1x64 .f32) (p : Fin 2000) (q : Fin 64) :
    k0_pay1 x0 x1 x2 (ix2 p q) = (∑ k : Fin 128, x0 (ix2 p k) * x1 (ix2 k q)) + x2 (ix2 (0 : Fin 1) q) := by
  unfold k0_pay1
  simp only [truncf_apply, addf_apply, shapeCast_self]
  rw [matmulLin0_at, broadcastTo_1b_ab_apply]
  rfl

variable (V : (c : Dev nD) → (b : Ref sig .tc) → Buf (Elt Ideal) ((c : Thread nD τ).loc b))

def linSpec0 (x : S100000x128.Idx → EReal) (w : S128x64.Idx → EReal) (b : S1x64.Idx → EReal) : S100000x64.Idx → EReal :=
  fun i => (∑ k : Fin 128, x (ix2 (i 0 : Fin 100000) k) * w (ix2 k (i 1 : Fin 64))) + b (ix2 (0 : Fin 1) (i 1 : Fin 64))

theorem idxLin0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem flushedLin0 (c : Dev nD) (t : Fin cfg0.N) :
    (dat0 (F := Ideal) V c).flushed 3 t
      = ((cfg0.win 3).blk t).view.read (Elt Ideal) (linSpec0 (V c main_arg0) (V c main_v30) (V c main_v31)) := by
  funext j
  show k0_pay1 (iblk0 V c 0 t) (iblk0 V c 1 t) (iblk0 V c 2 t) j
    = linSpec0 (V c main_arg0) (V c main_v30) (V c main_v31) (((cfg0.win 3).blk t).view.emb j)
  refine (congrArg _ (eq_ix2 j)).trans ((pay0_at _ _ _ (j 0) (j 1)).trans ?_)
  obtain ⟨e0, e1, e2, e3, e4, e5, e6, e7⟩ := idxLin0 t
  refine congrArg₂ (· + ·) (Finset.sum_congr rfl fun k _ => congrArg₂ (· * ·) ?_ ?_) ?_
  · show V c main_arg0 (((cfg0.win 0).blk t).view.emb (ix2 (j 0) k)) = _
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · show V c main_v30 (((cfg0.win 1).blk t).view.emb (ix2 k (j 1))) = _
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_3.index t (1 : Fin 2) * 64 + 1 * (j 1).val; omega
  · show V c main_v31 (((cfg0.win 2).blk t).view.emb (ix2 (0 : Fin 1) (j 1))) = _
    refine congrArg _ (funext fun a => Fin.ext ?_)
    match a with
    | ⟨0, _⟩ => show win0_2.index t (0 : Fin 2) * 1 + 1 * 0 = 0; omega
    | ⟨1, _⟩ => show win0_2.index t (1 : Fin 2) * 64 + 1 * (j 1).val = win0_3.index t (1 : Fin 2) * 64 + 1 * (j 1).val; omega

theorem coverLin0 (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  have hN : (i 0).val / 2000 < cfg0.N := by rw [show cfg0.N = 50 from N_0]; omega
  obtain ⟨-, -, -, -, -, -, e6, e7⟩ := idxLin0 ⟨(i 0).val / 2000, hN⟩
  refine ⟨⟨(i 0).val / 2000, hN⟩, flush0_3 _, ?_⟩
  show i ∈ ((View.whole main_v32).slice (win0_3.rect ⟨(i 0).val / 2000, hN⟩)).set
  rw [View.set_slice_whole, Rect.mem_set_unit]
  intro a
  match a with
  | ⟨0, _⟩ =>
    show win0_3.index _ (0 : Fin 2) * 2000 ≤ (i 0).val ∧ (i 0).val < win0_3.index _ (0 : Fin 2) * 2000 + 2000
    rw [e6]; show (i 0).val / 2000 * 2000 ≤ _ ∧ _ < (i 0).val / 2000 * 2000 + 2000; omega
  | ⟨1, _⟩ =>
    show win0_3.index _ (1 : Fin 2) * 64 ≤ (i 1).val ∧ (i 1).val < win0_3.index _ (1 : Fin 2) * 64 + 64
    rw [e7]; omega

theorem val0 (c : Dev nD) :
    (dat0 (F := Ideal) V c).arrAt 3 cfg0.N = linSpec0 (V c main_arg0) (V c main_v30) (V c main_v31) :=
  (dat0 (F := Ideal) V c).arrAt_eq_of_cover 3 _ (fun t _ => flushedLin0 V c t) coverLin0

end Cert.KernelIdeal.Hand
-- ==== Proof.LibSegmentSum.lean ====
import Mathlib.Data.EReal.Inv
import Mathlib.Algebra.BigOperators.Fin
import Mathlib.Algebra.BigOperators.Group.Finset.Basic
import Mathlib.Algebra.BigOperators.Group.Finset.Piecewise
import Mathlib.Data.Fintype.BigOperators
import Mathlib.Logic.Equiv.Fin.Basic

namespace Cert.LibSegmentSum

open Finset

theorem blk_lt {A B : ℕ} (a : Fin A) (b : Fin B) : a.val * B + b.val < A * B := by
  calc a.val * B + b.val < a.val * B + B := Nat.add_lt_add_left b.isLt _
    _ = (a.val + 1) * B := (Nat.succ_mul _ _).symm
    _ ≤ A * B := Nat.mul_le_mul_right _ a.isLt

theorem sum_blocks {M : Type*} [AddCommMonoid M] (A B : ℕ) (f : Fin (A * B) → M) :
    ∑ a : Fin A, ∑ b : Fin B, f ⟨a.val * B + b.val, blk_lt a b⟩ = ∑ n : Fin (A * B), f n := by
  calc ∑ a : Fin A, ∑ b : Fin B, f ⟨a.val * B + b.val, blk_lt a b⟩
      = ∑ x : Fin A × Fin B, f ⟨x.1.val * B + x.2.val, blk_lt x.1 x.2⟩ :=
        (Fintype.sum_prod_type' (fun a b => f ⟨a.val * B + b.val, blk_lt a b⟩)).symm
    _ = ∑ x : Fin A × Fin B, f (finProdFinEquiv x) := by
        refine Fintype.sum_congr _ _ fun x => congrArg f (Fin.ext ?_)
        show x.1.val * B + x.2.val = x.2.val + B * x.1.val
        rw [Nat.mul_comm, Nat.add_comm]
    _ = ∑ n : Fin (A * B), f n := Equiv.sum_comp finProdFinEquiv f

theorem acc_eq_sum {M : Type*} [AddCommMonoid M] (A : ℕ) (g : ℕ → M) (acc : ℕ → M)
    (h0 : acc 0 = 0) (hs : ∀ a, a < A → acc (a + 1) = acc a + g a) :
    acc A = ∑ a : Fin A, g a.val := by
  induction A with
  | zero => simpa using h0
  | succ A ih =>
    rw [hs A (Nat.lt_succ_self A), ih (fun a ha => hs a (Nat.lt_succ_of_lt ha)),
      Fin.sum_univ_castSucc]
    rfl

theorem acc_blocks {M : Type*} [AddCommMonoid M] (A B : ℕ) (f : Fin (A * B) → M) (acc : ℕ → M)
    (h0 : acc 0 = 0)
    (hs : ∀ a (ha : a < A), acc (a + 1)
      = acc a + (0 + ∑ b : Fin B, f ⟨a * B + b.val, blk_lt ⟨a, ha⟩ b⟩)) :
    acc A = ∑ n : Fin (A * B), f n := by
  have h := acc_eq_sum A
    (fun a => if ha : a < A then (0 + ∑ b : Fin B, f ⟨a * B + b.val, blk_lt ⟨a, ha⟩ b⟩) else 0)
    acc h0 (fun a ha => by rw [hs a ha, dif_pos ha])
  rw [h, ← sum_blocks]
  refine Fintype.sum_congr _ _ fun a => ?_
  rw [dif_pos a.isLt, zero_add]

theorem acc_blocks_125_800 {M : Type*} [AddCommMonoid M] (f : Fin 100000 → M) (acc : ℕ → M)
    (h0 : acc 0 = 0)
    (hs : ∀ a (ha : a < 125), acc (a + 1)
      = acc a + (0 + ∑ b : Fin 800, f ⟨a * 800 + b.val, blk_lt (A := 125) ⟨a, ha⟩ b⟩)) :
    acc 125 = ∑ n : Fin 100000, f n :=
  acc_blocks 125 800 f acc h0 hs

theorem acc_blocks_208_8192 {M : Type*} [AddCommMonoid M] (f : Fin 1703936 → M) (acc : ℕ → M)
    (h0 : acc 0 = 0)
    (hs : ∀ a (ha : a < 208), acc (a + 1)
      = acc a + (0 + ∑ b : Fin 8192, f ⟨a * 8192 + b.val, blk_lt (A := 208) ⟨a, ha⟩ b⟩)) :
    acc 208 = ∑ n : Fin 1703936, f n :=
  acc_blocks 208 8192 f acc h0 hs

theorem toInt_ofNat_small (n : ℕ) (hn : n < 2 ^ 31) : (BitVec.ofNat 32 n).toInt = (n : ℤ) := by
  have hm : n % 2 ^ 32 = n := Nat.mod_eq_of_lt (by omega)
  rw [BitVec.toInt_eq_toNat_cond, BitVec.toNat_ofNat, hm]
  split <;> omega

theorem toNat_lt_of_range {s : BitVec 32} {N : ℕ} (hs : 0 ≤ s.toInt ∧ s.toInt < (N : ℤ)) :
    s.toInt.toNat < N := by
  obtain ⟨h0, h1⟩ := hs
  omega

theorem eq_ofNat_iff (s : BitVec 32) (n : ℕ) (hn : n < 2 ^ 31) :
    s = BitVec.ofNat 32 n ↔ s.toInt = (n : ℤ) := by
  rw [← BitVec.toInt_inj, toInt_ofNat_small n hn]

theorem ofNat_eq_iff (s : BitVec 32) (n : ℕ) (hn : n < 2 ^ 31) :
    BitVec.ofNat 32 n = s ↔ s.toInt = (n : ℤ) := by
  rw [eq_comm]; exact eq_ofNat_iff s n hn

theorem onehot_select (N : ℕ) (hN : N ≤ 2 ^ 31) (s : BitVec 32) (h : Fin N → EReal)
    (hs : 0 ≤ s.toInt ∧ s.toInt < (N : ℤ)) :
    ∑ n : Fin N, (if s = BitVec.ofNat 32 n.val then (1 : EReal) else 0) * h n
      = h ⟨s.toInt.toNat, toNat_lt_of_range hs⟩ := by
  have key : ∀ n : Fin N, s = BitVec.ofNat 32 n.val ↔ n = ⟨s.toInt.toNat, toNat_lt_of_range hs⟩ := by
    intro n
    have hn := n.isLt
    rw [eq_ofNat_iff s n.val (by omega), Fin.ext_iff]
    show s.toInt = (n.val : ℤ) ↔ n.val = s.toInt.toNat
    obtain ⟨h0, h1⟩ := hs
    omega
  simp only [key, ite_mul, one_mul, zero_mul]
  rw [Finset.sum_ite_eq']
  exact if_pos (mem_univ _)

theorem layer_padded (N E P : ℕ) (hN : N ≤ 2 ^ 31)
    (src dst : Fin E → BitVec 32) (nrm : Fin E → EReal) (h : Fin N → EReal)
    (hsrc : ∀ e, 0 ≤ (src e).toInt ∧ (src e).toInt < (N : ℤ))
    (srcP dstP : Fin (E + P) → BitVec 32) (nrmP : Fin (E + P) → EReal)
    (hsrcP : ∀ (e : Fin (E + P)) (he : e.val < E), srcP e = src ⟨e.val, he⟩)
    (hdstP : ∀ (e : Fin (E + P)) (he : e.val < E), dstP e = dst ⟨e.val, he⟩)
    (hnrmP : ∀ (e : Fin (E + P)) (he : e.val < E), nrmP e = nrm ⟨e.val, he⟩)
    (hnrm0 : ∀ e : Fin (E + P), E ≤ e.val → nrmP e = 0)
    (n : Fin N) :
    ∑ e : Fin (E + P), (if BitVec.ofNat 32 n.val = dstP e then (1 : EReal) else 0)
        * ((∑ k : Fin N, (if srcP e = BitVec.ofNat 32 k.val then (1 : EReal) else 0) * h k)
            * nrmP e)
      = ∑ e ∈ Finset.univ.filter (fun e : Fin E => (dst e).toInt = (n.val : ℤ)),
          nrm e * h ⟨(src e).toInt.toNat, toNat_lt_of_range (hsrc e)⟩ := by
  have hn : n.val < 2 ^ 31 := lt_of_lt_of_le n.isLt hN
  rw [Fin.sum_univ_add]

  have hpad : ∑ i : Fin P, (if BitVec.ofNat 32 n.val = dstP (Fin.natAdd E i) then (1 : EReal) else 0)
        * ((∑ k : Fin N, (if srcP (Fin.natAdd E i) = BitVec.ofNat 32 k.val then (1 : EReal) else 0)
              * h k) * nrmP (Fin.natAdd E i)) = 0 :=
    Finset.sum_eq_zero fun i _ => by
      rw [hnrm0 (Fin.natAdd E i) (Nat.le_add_right E i.val), mul_zero, mul_zero]
  rw [hpad, add_zero, Finset.sum_filter]
  refine Fintype.sum_congr _ _ fun e => ?_
  have he : (Fin.castAdd P e).val < E := e.isLt
  rw [hsrcP _ he, hdstP _ he, hnrmP _ he]
  show (if BitVec.ofNat 32 n.val = dst e then (1 : EReal) else 0)
      * ((∑ k : Fin N, (if src e = BitVec.ofNat 32 k.val then (1 : EReal) else 0) * h k) * nrm e)
    = if (dst e).toInt = (n.val : ℤ) then
        nrm e * h ⟨(src e).toInt.toNat, toNat_lt_of_range (hsrc e)⟩ else 0
  rw [onehot_select N hN (src e) h (hsrc e)]
  by_cases hd : (dst e).toInt = (n.val : ℤ)
  · rw [if_pos hd, if_pos ((ofNat_eq_iff (dst e) n.val hn).2 hd), one_mul, mul_comm]
  · rw [if_neg hd, if_neg (fun h' => hd ((ofNat_eq_iff (dst e) n.val hn).1 h')), zero_mul]

theorem layer_padded_100000
    (src dst : Fin 1700000 → BitVec 32) (nrm : Fin 1700000 → EReal) (h : Fin 100000 → EReal)
    (hsrc : ∀ e, 0 ≤ (src e).toInt ∧ (src e).toInt < ((100000 : ℕ) : ℤ))
    (srcP dstP : Fin 1703936 → BitVec 32) (nrmP : Fin 1703936 → EReal)
    (hsrcP : ∀ (e : Fin 1703936) (he : e.val < 1700000), srcP e = src ⟨e.val, he⟩)
    (hdstP : ∀ (e : Fin 1703936) (he : e.val < 1700000), dstP e = dst ⟨e.val, he⟩)
    (hnrmP : ∀ (e : Fin 1703936) (he : e.val < 1700000), nrmP e = nrm ⟨e.val, he⟩)
    (hnrm0 : ∀ e : Fin 1703936, 1700000 ≤ e.val → nrmP e = 0)
    (n : Fin 100000) :
    ∑ e : Fin 1703936, (if BitVec.ofNat 32 n.val = dstP e then (1 : EReal) else 0)
        * ((∑ k : Fin 100000, (if srcP e = BitVec.ofNat 32 k.val then (1 : EReal) else 0) * h k)
            * nrmP e)
      = ∑ e ∈ Finset.univ.filter (fun e : Fin 1700000 => (dst e).toInt = (n.val : ℤ)),
          nrm e * h ⟨(src e).toInt.toNat, toNat_lt_of_range (hsrc e)⟩ :=
  layer_padded 100000 1700000 3936 (by norm_num) src dst nrm h hsrc srcP dstP nrmP
    hsrcP hdstP hnrmP hnrm0 n

end Cert.LibSegmentSum
-- ==== Proof.KI.Gat1Value.lean ====
import proofs.«133651_j30339648979593_1_alg».proof.Proof.KI.Gat1
import proofs.«133651_j30339648979593_1_alg».proof.Proof.KI.Spec
import proofs.«133651_j30339648979593_1_alg».proof.Proof.LibSegmentSum
import Idealize.ShloMosaic.Lib.ValueLayout
import Idealize.ShloMosaic.PureOps.Ideal.Laws
set_option maxRecDepth 16384
noncomputable section
namespace Cert.KernelIdeal.Hand
open Idealize.ShloMosaic Idealize.ShloMosaic.TcCoe Idealize.ShloMosaic.Tactic
open Cert.KernelIdeal Cert.KernelIdeal.Gen

open Idealize.ShloMosaic.ValueIdx
open scoped BigOperators
variable (V : (c : Dev nD) → (b : Ref sig .tc) → Buf (Elt Ideal) ((c : Thread nD τ).loc b))

-- the comparison's bit, widened and converted, is 1 where the words agree and 0 elsewhere
theorem onehotWord1 (a b : BitVec 32) :
    FloatOps.sitofp (F := Ideal) .f32 ((IntOp.cmpi .eq a b).setWidth 32) = if a = b then (1 : EReal) else 0 := by
  by_cases h : a = b
  · subst h
    rw [if_pos rfl]
    show (((BitVec.setWidth 32 (BitVec.ofBool (a == a))).toInt : ℝ) : EReal) = 1
    rw [beq_self_eq_true, show (BitVec.setWidth 32 (BitVec.ofBool true)).toInt = 1 by decide]; norm_num
  · rw [if_neg h]
    show (((BitVec.setWidth 32 (BitVec.ofBool (a == b))).toInt : ℝ) : EReal) = 0
    rw [beq_eq_false_iff_ne.mpr h]
    norm_num [BitVec.ofBool]

theorem payZero1 (j : S8192x64.Idx) : k1_pay1 (F := Ideal) j = 0 := by
  unfold k1_pay1
  simp only [shapeCast_self]
  exact Ideal.ofBits_zero_f32

theorem cmpiVec_apply1 {s : Shape} {w : ℕ} (p : CmpIPredicate) (x y : IVec s w) (i : s.Idx) : cmpi p x y i = IntOp.cmpi p (x i) (y i) := rfl

-- a column of per-row values broadcast along the rows reads the row's value
theorem colBroadcast1 {α : Type} {n : ℕ} (x : S8192.Idx → α) (h1 : S8192.ShapeCasts S8192x1)
    (h2 : S8192x1.Broadcasts ⟨2, ![8192, n]⟩) (r : Fin 8192) (k : Fin n) :
    broadcastTo ⟨2, ![8192, n]⟩ (shapeCast S8192x1 x h1) h2 (ix2 r k) = x (ix1 r) := by
  refine (broadcastTo_apply _ h2 (ix2 r k) (ix2 r (0 : Fin 1)) (fun a => by
    match a with
    | ⟨0, _⟩ => rfl
    | ⟨1, _⟩ => rfl)).trans ?_
  exact shapeCast_apply x h1 (ix2 r (0 : Fin 1)) (ix1 r) (by
    rw [Shape.rowMajor_val_one, Shape.rowMajor_val_two]
    show r.val = r.val * 1 + 0
    omega)

theorem payOut1 (acc : Vec Ideal S8192x64 .f32) (nrm : Vec Ideal S8192 .f32) (r : Fin 8192) (d : Fin 64) :
    k1_pay3 acc nrm (ix2 r d) = acc (ix2 r d) * nrm (ix1 r) := by
  unfold k1_pay3
  simp only [shapeCast_self, truncf_apply, mulf_apply]
  exact congrArg (acc (ix2 r d) * ·) (colBroadcast1 nrm _ _ r d)

theorem rowIds1 (v3 : BitVec 32) (h : S1x800.Iotas .tc 32 [1]) (hb : S1x800.Broadcasts S8192x800) (r : Fin 8192) (k : Fin 800) :
    broadcastTo S8192x800 (addi (broadcast S1x800 v3) (iota .tc S1x800 32 [1] h)) hb (ix2 r k) = v3 + BitVec.ofNat 32 k.val := by
  rw [broadcastTo_1b_ab_apply]
  show v3 + BitVec.ofNat 32 (0 * 800 + k.val) = _
  rw [Nat.zero_mul, Nat.zero_add]

theorem lhsD1_0 (i : S8192x64.Idx) (q : dot_S8192x800_S800x64_S8192x64_1_0_0_1_n_n.contr.Idx) :
    (dot_S8192x800_S800x64_S8192x64_1_0_0_1_n_n.lhsIdx i q 0).val = (i 0).val := by
  unfold DotDims.lhsIdx
  rw [dif_neg (show ¬(0 : Fin S8192x800.rank) ∈ dot_S8192x800_S800x64_S8192x64_1_0_0_1_n_n.lhsBatch by decide), dif_pos (show (0 : Fin S8192x800.rank) ∈ dot_S8192x800_S800x64_S8192x64_1_0_0_1_n_n.lhsNonContracting by decide)]
  rfl
theorem rhsD1_1 (i : S8192x64.Idx) (q : dot_S8192x800_S800x64_S8192x64_1_0_0_1_n_n.contr.Idx) :
    (dot_S8192x800_S800x64_S8192x64_1_0_0_1_n_n.rhsIdx i q 1).val = (i 1).val := by
  unfold DotDims.rhsIdx
  rw [dif_neg (show ¬(1 : Fin S800x64.rank) ∈ dot_S8192x800_S800x64_S8192x64_1_0_0_1_n_n.rhsBatch by decide), dif_pos (show (1 : Fin S800x64.rank) ∈ dot_S8192x800_S800x64_S8192x64_1_0_0_1_n_n.rhsNonContracting by decide)]
  rfl

set_option maxHeartbeats 1000000 in
-- the update adds, per row, the sum over the block's nodes of "the row's word is this node" times the node's feature
theorem payStep1 (i : grid1.Coords) (x0 : Vec Ideal S8192 .i32) (x2 : Vec Ideal S800x64 .bf16) (xs : Vec Ideal S8192x64 .f32)
    (r : Fin 8192) (d : Fin 64) :
    k1_pay2 i x0 x2 xs (ix2 r d)
      = xs (ix2 r d) + ∑ k : Fin 800, (if x0 (ix1 r) = BitVec.ofNat 32 ((i 1).val * 800 + k.val) then (1 : EReal) else 0) * x2 (ix2 k d) := by
  unfold k1_pay2
  simp only [shapeCast_self, addf_apply, matmul]
  refine congrArg (xs (ix2 r d) + ·) ?_
  rw [Ideal.matmul_constant_zero_apply, ← Equiv.sum_comp (contrEquiv1 dot_S8192x800_S800x64_S8192x64_1_0_0_1_n_n 800 rfl rfl).symm]
  refine Finset.sum_congr rfl fun k _ => ?_
  have hk := «contrEquiv1_symm_val» dot_S8192x800_S800x64_S8192x64_1_0_0_1_n_n 800 rfl rfl k
  have el : dot_S8192x800_S800x64_S8192x64_1_0_0_1_n_n.lhsIdx (ix2 r d) ((contrEquiv1 dot_S8192x800_S800x64_S8192x64_1_0_0_1_n_n 800 rfl rfl).symm k) = (ix2 r k : S8192x800.Idx) := funext fun a => Fin.ext (by
    match a with
    | ⟨0, _⟩ => exact lhsD1_0 _ _
    | ⟨1, _⟩ => exact (dot_S8192x800_S800x64_S8192x64_1_0_0_1_n_n.lhsIdx_val_of_single rfl _ _).trans hk)
  have er : dot_S8192x800_S800x64_S8192x64_1_0_0_1_n_n.rhsIdx (ix2 r d) ((contrEquiv1 dot_S8192x800_S800x64_S8192x64_1_0_0_1_n_n 800 rfl rfl).symm k) = (ix2 k d : S800x64.Idx) := funext fun a => Fin.ext (by
    match a with
    | ⟨0, _⟩ => exact (dot_S8192x800_S800x64_S8192x64_1_0_0_1_n_n.rhsIdx_val_of_single rfl _ _).trans hk
    | ⟨1, _⟩ => exact rhsD1_1 _ _)
  rw [el, er]
  refine congrArg (· * x2 (ix2 k d)) ?_
  simp only [truncf_apply, sitofp_apply, extui_apply, cmpiVec_apply1]
  rw [onehotWord1, colBroadcast1, rowIds1,
    show Scalar.muli (BitVec.ofNat 32 (i 1).val) 800#32 + BitVec.ofNat 32 k.val = BitVec.ofNat 32 ((i 1).val * 800 + k.val) by
      rw [BitVec.ofNat_add, BitVec.ofNat_mul]; rfl]

abbrev srcArr1 (c : Dev nD) : S1703936.Idx → BitVec 32 := V c main_v27
abbrev nrmArr1 (c : Dev nD) : S1703936.Idx → EReal := V c main_v29
abbrev featArr1 (c : Dev nD) : S100000x64.Idx → EReal := V c main_v32
abbrev srcBlk1 (c : Dev nD) (t : Fin cfg1.N) : Vec Ideal S8192 .i32 := iblk1 V c 0 t
abbrev nrmBlk1 (c : Dev nD) (t : Fin cfg1.N) : Vec Ideal S8192 .f32 := iblk1 V c 1 t
abbrev featBlk1 (c : Dev nD) (t : Fin cfg1.N) : Vec Ideal S800x64 .bf16 := iblk1 V c 2 t

-- a point's block of edges is the array's stretch of 8192 edges at the point's outer coordinate
theorem srcBlk1_apply (c : Dev nD) (t : Fin cfg1.N) (r : Fin 8192) (R : Fin 1703936) (hR : R.val = t.val / 125 * 8192 + r.val) :
    srcBlk1 V c t (ix1 r) = srcArr1 V c (ix1 R) := by
  show srcArr1 V c (((cfg1.win 0).blk t).view.emb (ix1 r)) = srcArr1 V c (ix1 R)
  refine congrArg (srcArr1 V c) (funext fun a => Fin.ext ?_)
  match a with
  | ⟨0, _⟩ =>
    show win1_0.index t 0 * 8192 + 1 * r.val = R.val
    rw [idx1_0, hR]; omega
theorem nrmBlk1_apply (c : Dev nD) (t : Fin cfg1.N) (r : Fin 8192) (R : Fin 1703936) (hR : R.val = t.val / 125 * 8192 + r.val) :
    nrmBlk1 V c t (ix1 r) = nrmArr1 V c (ix1 R) := by
  show nrmArr1 V c (((cfg1.win 1).blk t).view.emb (ix1 r)) = nrmArr1 V c (ix1 R)
  refine congrArg (nrmArr1 V c) (funext fun a => Fin.ext ?_)
  match a with
  | ⟨0, _⟩ =>
    show win1_1.index t 0 * 8192 + 1 * r.val = R.val
    rw [idx1_1, hR]; omega
-- its block of nodes is the stretch of 800 nodes at the inner coordinate
theorem featBlk1_apply (c : Dev nD) (t : Fin cfg1.N) (k : Fin 800) (d : Fin 64) (n : Fin 100000) (hn : n.val = t.val % 125 * 800 + k.val) :
    featBlk1 V c t (ix2 k d) = featArr1 V c (ix2 n d) := by
  show featArr1 V c (((cfg1.win 2).blk t).view.emb (ix2 k d)) = featArr1 V c (ix2 n d)
  refine congrArg (featArr1 V c) (funext fun a => Fin.ext ?_)
  match a with
  | ⟨0, _⟩ =>
    show win1_2.index t 0 * 800 + 1 * k.val = n.val
    rw [idx1_2_0, hn]; omega
  | ⟨1, _⟩ =>
    show win1_2.index t 1 * 64 + 1 * d.val = d.val
    rw [idx1_2_1]; omega

set_option maxHeartbeats 1000000 in
-- the 125 points of an outer coordinate each add the partial sum over their 800 nodes to what the first reset to zero
theorem acc1_row (c : Dev nD) (q : Fin 208) (r : Fin 8192) (d : Fin 64) (R : Fin 1703936) (hR : R.val = q.val * 8192 + r.val) :
    acc1 V c (q.val * 125 + 125) (ix2 r d)
      = ∑ n : Fin 100000, (if srcArr1 V c (ix1 R) = BitVec.ofNat 32 n.val then (1 : EReal) else 0) * featArr1 V c (ix2 n d) := by
  have hq := q.isLt
  rw [← Cert.LibSegmentSum.acc_blocks_125_800
    (fun n : Fin 100000 => (if srcArr1 V c (ix1 R) = BitVec.ofNat 32 n.val then (1 : EReal) else 0) * featArr1 V c (ix2 n d))
    (fun a => if a = 0 then 0 else acc1 V c (q.val * 125 + a) (ix2 r d))
    (if_pos rfl)
    (fun a ha => by
      let t : Fin cfg1.N := ⟨q.val * 125 + a, lt_of_lt_of_eq (by omega : q.val * 125 + a < 26000) N_1.symm⟩
      have hdiv : t.val / 125 = q.val := by show (q.val * 125 + a) / 125 = q.val; omega
      have hmod : t.val % 125 = a := by show (q.val * 125 + a) % 125 = a; omega
      have hj : ((grid1.coords t) 1).val = a := (coordsInner1 t).trans hmod
      rw [if_neg (Nat.succ_ne_zero a), zero_add]
      show acc1 V c (t.val + 1) (ix2 r d) = _
      rw [acc1_succ V c t]
      unfold step1
      rw [payStep1]
      congr 1
      · by_cases ha0 : a = 0
        · rw [if_pos ha0, if_pos (hj.trans ha0)]; exact payZero1 _
        · rw [if_neg ha0, if_neg (fun h => ha0 (hj.symm.trans h))]
      · refine Finset.sum_congr rfl fun k _ => ?_
        rw [hj]
        show (if srcBlk1 V c t (ix1 r) = _ then (1 : EReal) else 0) * featBlk1 V c t (ix2 k d) = _
        rw [srcBlk1_apply V c t r R (by rw [hdiv, hR]),
          featBlk1_apply V c t k d ⟨a * 800 + k.val, Cert.LibSegmentSum.blk_lt (A := 125) ⟨a, ha⟩ k⟩ (by rw [hmod])])]
  exact (if_neg (by omega)).symm

-- at a storing point the block holds the gathered feature of each edge's source scaled by the edge's weight
theorem out1_entry (c : Dev nD) (t : Fin cfg1.N) (h124 : t.val % 125 = 124) (r : Fin 8192) (d : Fin 64)
    (R : Fin 1703936) (hR : R.val = t.val / 125 * 8192 + r.val) :
    k1_pay3 (acc1 V c (t.val + 1)) (nrmBlk1 V c t) (ix2 r d)
      = gatSpec1 (srcArr1 V c) (nrmArr1 V c) (featArr1 V c) (ix2 R d) := by
  have hN : t.val < 26000 := lt_of_lt_of_eq t.isLt N_1
  rw [payOut1, show t.val + 1 = (t.val / 125) * 125 + 125 by omega,
    acc1_row V c ⟨t.val / 125, by omega⟩ r d R hR, nrmBlk1_apply V c t r R hR]
  rfl

-- the storing points' blocks tile the output array, and each holds its block of the gather
theorem val1 (c : Dev nD) :
    (dat1 (F := Ideal) V c).arrAt 3 cfg1.N = gatSpec1 (V c main_v27) (V c main_v29) (V c main_v32) :=
  (dat1 (F := Ideal) V c).arrAt_eq_of_cover 3 (gatSpec1 (V c main_v27) (V c main_v29) (V c main_v32))
    (fun t hf => by
      have hN : t.val < 26000 := lt_of_lt_of_eq t.isLt N_1
      show (cfg1.win 3).cut (grid1.coords t) ((dat1 (F := Ideal) V c).after 3 t) = _
      rw [after1_3]
      funext j
      have hj0 : (j 0).val < 8192 := (j 0).isLt
      show k1_pay3 (acc1 V c (t.val + 1)) (nrmBlk1 V c t) j
        = gatSpec1 (srcArr1 V c) (nrmArr1 V c) (featArr1 V c) (((cfg1.win 3).blk t).view.emb j)
      rw [show ((cfg1.win 3).blk t).view.emb j
          = (ix2 (⟨t.val / 125 * 8192 + (j 0).val, by omega⟩ : Fin 1703936) (j 1) : S1703936x64.Idx) from
        funext fun a => Fin.ext (by
          match a with
          | ⟨0, _⟩ =>
            show win1_3.index t 0 * 8192 + 1 * (j 0).val = t.val / 125 * 8192 + (j 0).val
            rw [idx1_3_0]; omega
          | ⟨1, _⟩ =>
            show win1_3.index t 1 * 64 + 1 * (j 1).val = (j 1).val
            rw [idx1_3_1]; omega)]
      exact (congrArg (k1_pay3 (acc1 V c (t.val + 1)) (nrmBlk1 V c t)) (eq_ix2 j)).trans
        (out1_entry V c t ((flush1_3 t).mp hf) (j 0) (j 1) _ rfl))
    (fun i => by
      have hi0 : (i 0).val < 1703936 := (i 0).isLt
      have hi1 : (i 1).val < 64 := (i 1).isLt
      let t : Fin cfg1.N := ⟨(i 0).val / 8192 * 125 + 124, lt_of_lt_of_eq (by omega) N_1.symm⟩
      have ht : t.val = (i 0).val / 8192 * 125 + 124 := rfl
      refine ⟨t, (flush1_3 t).mpr (by rw [ht]; omega), ?_⟩
      show i ∈ ((View.whole main_v33).slice (win1_3.rect t)).set
      rw [View.set_slice_whole, Rect.mem_set_unit]
      intro a
      match a with
      | ⟨0, _⟩ =>
        show win1_3.index t 0 * 8192 ≤ (i 0).val ∧ (i 0).val < win1_3.index t 0 * 8192 + 8192
        rw [idx1_3_0, ht]; omega
      | ⟨1, _⟩ =>
        show win1_3.index t 1 * 64 ≤ (i 1).val ∧ (i 1).val < win1_3.index t 1 * 64 + 64
        rw [idx1_3_1]; omega)

end Cert.KernelIdeal.Hand
end
-- ==== Proof.KI.Sca2Pay.lean ====
import proofs.«133651_j30339648979593_1_alg».proof.Proof.Gen.KernelIdeal.Skeleton
import Idealize.ShloMosaic.Lib.Pipeline.Value
import Idealize.ShloMosaic.Lib.ValueIdx
import Idealize.ShloMosaic.Lib.ValueIdxRank1
import Idealize.ShloMosaic.Lib.ValueLayout
import Idealize.ShloMosaic.PureOps.Ideal.Laws
noncomputable section
namespace Cert.KernelIdeal.Hand
open Idealize.ShloMosaic Idealize.ShloMosaic.TcCoe
open Idealize.ShloMosaic.ValueIdx
open Idealize.SL.Sem
open Cert.KernelIdeal Cert.KernelIdeal.Gen
open scoped BigOperators

theorem onehot_word2 (p q : BitVec 32) :
    (FloatOps.sitofp (F := Ideal) .f32 ((IntOp.cmpi .eq p q).setWidth 32) : EReal) = if p = q then 1 else 0 := by
  show ((((BitVec.ofBool (p == q)).setWidth 32).toInt : ℝ) : EReal) = _
  by_cases h : p = q
  · rw [if_pos h, show (p == q) = true from by simpa using h, show ((BitVec.ofBool true).setWidth 32).toInt = 1 from by decide]
    simp
  · rw [if_neg h, show (p == q) = false from by simpa using h, show ((BitVec.ofBool false).setWidth 32).toInt = 0 from by decide]
    simp

theorem rowWord2 (g a : ℕ) : Scalar.muli (BitVec.ofNat 32 g) 800#32 + BitVec.ofNat 32 a = BitVec.ofNat 32 (800 * g + a) := by
  show BitVec.ofNat 32 g * BitVec.ofNat 32 800 + BitVec.ofNat 32 a = BitVec.ofNat 32 (800 * g + a)
  rw [← BitVec.ofNat_mul, ← BitVec.ofNat_add, Nat.mul_comm]

-- a one-column array broadcast along the rows reads the operand's row
theorem broadcastTo_col2 {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem payZero2 (j : S800x64.Idx) : (k2_pay1 (F := Ideal)) j = 0 := by
  unfold k2_pay1
  simp only [shapeCast_self, broadcast_apply]
  exact Ideal.ofBits_zero_f32

abbrev dotSca2 := dot_S800x8192_S8192x64_S800x64_1_0_0_1_n_n

theorem payStep2 (i : grid2.Coords) (x0 : Vec Ideal S8192 .i32) (x1 : Vec Ideal S8192x64 .bf16) (xs : Vec Ideal S800x64 .f32)
    (a : Fin 800) (d : Fin 64) :
    k2_pay2 i x0 x1 xs (ix2 a d)
      = xs (ix2 a d) + (0 + ∑ b : Fin 8192,
          (if BitVec.ofNat 32 (800 * (i 0).val + a.val) = x0 (ix1 b) then (1 : EReal) else 0) * x1 (ix2 b d)) := by
  unfold k2_pay2
  simp only [shapeCast_self, matmul]
  rw [addf_apply, Ideal.matmul_apply, constant_apply, Ideal.ofBits_zero_f32]
  refine congrArg (fun z => xs (ix2 a d) + (0 + z)) ?_
  refine (Equiv.sum_comp (contrEquiv1 dotSca2 8192 rfl rfl).symm _).symm.trans (Fintype.sum_congr _ _ fun b => ?_)
  have hv := contrEquiv1_symm_val dotSca2 8192 rfl rfl b
  have hl : dotSca2.lhsIdx (ix2 a d) ((contrEquiv1 dotSca2 8192 rfl rfl).symm b) = ix2 a b := by
    funext ax; apply Fin.ext
    match ax with
    | ⟨0, _⟩ => rfl
    | ⟨1, _⟩ => exact hv
  have hr : dotSca2.rhsIdx (ix2 a d) ((contrEquiv1 dotSca2 8192 rfl rfl).symm b) = ix2 b d := by
    funext ax; apply Fin.ext
    match ax with
    | ⟨0, _⟩ => exact hv
    | ⟨1, _⟩ => rfl
  rw [hl, hr]
  refine congrArg (· * x1 (ix2 b d)) ?_
  show FloatOps.sitofp (F := Ideal) .f32 ((IntOp.cmpi .eq
      (broadcastTo S800x8192 (addi (broadcast S800x1 (Scalar.muli (BitVec.ofNat 32 (i 0).val) 800#32))
        (iota .tc S800x1 32 [0] iota_S800x1_d0_w32)) broadcasts_S800x1_S800x8192 (ix2 a b))
      (broadcastTo S800x8192 (shapeCast S1x8192 x0 shapeCasts_S8192_S1x8192) broadcasts_S1x8192_S800x8192 (ix2 a b))).setWidth 32) = _
  rw [onehot_word2, broadcastTo_col2, broadcastTo_1b_ab_apply, shapeCast_a_1a_apply]
  show (if IntOp.addi (Scalar.muli (BitVec.ofNat 32 (i 0).val) 800#32) (iota .tc S800x1 32 [0] iota_S800x1_d0_w32 (ix2 a (0 : Fin 1))) = x0 (ix1 b)
      then (1 : EReal) else 0) = _
  rw [iota_single_apply]
  show (if Scalar.muli (BitVec.ofNat 32 (i 0).val) 800#32 + BitVec.ofNat 32 a.val = x0 (ix1 b) then (1 : EReal) else 0) = _
  rw [rowWord2]

end Cert.KernelIdeal.Hand
end
-- ==== Proof.KI.Sca2Acc.lean ====
import proofs.«133651_j30339648979593_1_alg».proof.Proof.KI.Sca2
import proofs.«133651_j30339648979593_1_alg».proof.Proof.KI.Sca2Pay
import proofs.«133651_j30339648979593_1_alg».proof.Proof.KI.Spec
import proofs.«133651_j30339648979593_1_alg».proof.Proof.LibSegmentSum
noncomputable section
namespace Cert.KernelIdeal.Hand
open Idealize.ShloMosaic Idealize.ShloMosaic.TcCoe
open Idealize.ShloMosaic.ValueIdx
open Idealize.SL Idealize.SL.Sem
open Cert.KernelIdeal Cert.KernelIdeal.Gen Cert.LibSegmentSum
open scoped BigOperators

-- the last coordinate, as a word read back as a number
theorem idxLast2 (t : Fin cfg2.N) : (BitVec.ofNat 32 ((grid2.coords t) 1).val).toNat = t.val % 208 := by
  rw [BitVec.toNat_ofNat, coordLast2]
  exact Nat.mod_eq_of_lt (by omega)

section Blocks
variable {F : FTy → Type} [FloatOps F]
variable (V : (c : Dev nD) → (b : Ref sig .tc) → Buf (Elt F) ((c : Thread nD τ).loc b))

theorem iblkDst_apply2 (c : Dev nD) (t : Fin cfg2.N) (e : Fin 208) (he : t.val % 208 = e.val) (b : Fin 8192) :
    (iblk2 V c 0 t : Vec F S8192 .i32) (ix1 b)
      = (V c main_v28 : S1703936.Idx → Elt F .i32) (ix1 ⟨e.val * 8192 + b.val, blk_lt e b⟩) := by
  unfold iblk2
  rw [View.read_apply]
  show V c main_v28 _ = V c main_v28 _
  congr 1
  funext ax; apply Fin.ext
  match ax with
  | ⟨0, _⟩ =>
    show (BitVec.ofNat 32 ((grid2.coords t) 1).val).toNat * 8192 + 1 * b.val = e.val * 8192 + b.val
    rw [idxLast2, he]; omega

theorem iblkMsg_apply2 (c : Dev nD) (t : Fin cfg2.N) (e : Fin 208) (he : t.val % 208 = e.val) (b : Fin 8192) (d : Fin 64) :
    (iblk2 V c 1 t : Vec F S8192x64 .bf16) (ix2 b d)
      = (V c main_v33 : S1703936x64.Idx → Elt F .bf16) (ix2 ⟨e.val * 8192 + b.val, blk_lt e b⟩ d) := by
  unfold iblk2
  rw [View.read_apply]
  show V c main_v33 _ = V c main_v33 _
  congr 1
  funext ax; apply Fin.ext
  match ax with
  | ⟨0, _⟩ =>
    show (BitVec.ofNat 32 ((grid2.coords t) 1).val).toNat * 8192 + 1 * b.val = e.val * 8192 + b.val
    rw [idxLast2, he]; omega
  | ⟨1, _⟩ =>
    show 0 * 64 + 1 * d.val = d.val
    omega

end Blocks

variable (V : (c : Dev nD) → (b : Ref sig .tc) → Buf (Elt Ideal) ((c : Thread nD τ).loc b))

def segBlock2 (c : Dev nD) (g : ℕ) (hg : g < 125) : Vec Ideal S800x64 .f32 :=
  fun j => segSum2 (V c main_v28) (V c main_v33) (ix2 ⟨800 * g + (j 0).val, by have h800 : (j 0).val < 800 := (j 0).isLt; omega⟩ (j 1))

-- edge n's contribution to row a of node block g: the indicator that the edge points there, times its message
def hit2 (c : Dev nD) (g : ℕ) (a : Fin 800) (d : Fin 64) (n : Fin 1703936) : EReal :=
  (if BitVec.ofNat 32 (800 * g + a.val) = (V c main_v28 : S1703936.Idx → BitVec 32) (ix1 n) then 1 else 0)
    * (V c main_v33 : S1703936x64.Idx → EReal) (ix2 n d)

theorem acc_point2 (c : Dev nD) (g : ℕ) (hg : g < 125) (e : ℕ) (he : e < 208) (a : Fin 800) (d : Fin 64) :
    accN2 V c (g * 208 + e + 1) (ix2 a d)
      = (if e = 0 then 0 else accN2 V c (g * 208 + e) (ix2 a d))
        + (0 + ∑ b : Fin 8192, hit2 V c g a d ⟨e * 8192 + b.val, blk_lt (A := 208) ⟨e, he⟩ b⟩) := by
  let t : Fin cfg2.N := ⟨g * 208 + e, by rw [show cfg2.N = 26000 from N_2]; omega⟩
  have hmod : t.val % 208 = e := by show (g * 208 + e) % 208 = e; omega
  have hdiv : t.val / 208 = g := by show (g * 208 + e) / 208 = g; omega
  rw [show accN2 V c (g * 208 + e + 1) = acc2 V c t.succ from rfl, acc2_succ V c t]
  refine (payStep2 (cfg2.grid.coords t) (iblk2 V c 0 t) (iblk2 V c 1 t)
    (if condA2 (cfg2.grid.coords t) then (k2_pay1 (F := Ideal)) else acc2 V c t.castSucc) a d).trans ?_
  rw [coordFirst2 t, hdiv]
  refine congrArg₂ (· + ·) ?_ (congrArg (fun z : EReal => 0 + z) (Fintype.sum_congr _ _ fun b => ?_))
  · by_cases h0 : e = 0
    · rw [if_pos h0, if_pos ((condA_at2 t).mpr (by rw [hmod, h0])), payZero2]
    · rw [if_neg h0, if_neg (fun hA => h0 (by rw [← hmod]; exact (condA_at2 t).mp hA))]
      rfl
  · unfold hit2
    rw [iblkDst_apply2 V c t ⟨e, he⟩ hmod b, iblkMsg_apply2 V c t ⟨e, he⟩ hmod b d]

theorem acc_final2 (c : Dev nD) (g : ℕ) (hg : g < 125) : accN2 V c (g * 208 + 208) = segBlock2 V c g hg := by
  funext j
  obtain ⟨a, d, rfl⟩ : ∃ a d, j = ix2 a d := ⟨j 0, j 1, eq_ix2 j⟩
  have h := acc_blocks_208_8192 (hit2 V c g a d)
    (fun e => if e = 0 then 0 else accN2 V c (g * 208 + e) (ix2 a d))
    (if_pos rfl)
    (fun e he => by
      show (if e + 1 = 0 then (0 : EReal) else accN2 V c (g * 208 + (e + 1)) (ix2 a d)) = _
      rw [if_neg (Nat.succ_ne_zero e)]
      exact acc_point2 V c g hg e he a d)
  rw [if_neg (by decide)] at h
  exact h

theorem segBlock_row2 (c : Dev nD) (r : Fin 100000) (k : Fin 64) :
    segBlock2 V c (r.val / 800) (by have hr := r.isLt; omega) (ix2 ⟨r.val % 800, Nat.mod_lt _ (by decide)⟩ k)
      = segSum2 (V c main_v28) (V c main_v33) (ix2 r k) := by
  unfold segBlock2
  refine congrArg (segSum2 (V c main_v28) (V c main_v33)) ?_
  funext ax; apply Fin.ext
  match ax with
  | ⟨0, _⟩ => exact Nat.div_add_mod _ _
  | ⟨1, _⟩ => rfl

def outArr2 (c : Dev nD) : S100000x64.Idx → EReal :=
  fun i => k2_pay3 (segBlock2 V c ((i 0).val / 800) (by have hr : (i 0).val < 100000 := (i 0).isLt; omega)) (ix2 ⟨(i 0).val % 800, Nat.mod_lt _ (by decide)⟩ (i 1))

-- entry y of node block g is the output array's entry at row 800 g + y 0
theorem outArr_at2 (c : Dev nD) (g : ℕ) (hg : g < 125) (y : S800x64.Idx) (i : S100000x64.Idx)
    (h0 : (i 0).val = g * 800 + (y 0).val) (h1 : (i 1).val = (y 1).val) :
    k2_pay3 (segBlock2 V c g hg) y = outArr2 V c i := by
  have hy : (y 0).val < 800 := (y 0).isLt
  obtain rfl : g = (i 0).val / 800 := by omega
  refine congrArg (k2_pay3 (segBlock2 V c _ hg)) ?_
  funext ax; apply Fin.ext
  match ax with
  | ⟨0, _⟩ => show (y 0).val = (i 0).val % 800; omega
  | ⟨1, _⟩ => exact h1.symm

theorem cut_apply2 (t : Fin cfg2.N) (X : S800x64.Idx → EReal) (y : S800x64.Idx) :
    (cfg2.win 2).cut (grid2.coords t) X y = X y := rfl

theorem read_blk_apply2 (t : Fin cfg2.N) (G : S100000x64.Idx → EReal) (y : S800x64.Idx) :
    ((cfg2.win 2).blk t).view.read (Elt Ideal) G y = G (((cfg2.win 2).blk t).view.emb y) := rfl

theorem flushed_eq2 (c : Dev nD) (t : Fin cfg2.N) (hf : (cfg2.win 2).flush t = true) :
    (dat2 (F := Ideal) V c).flushed 2 t = ((cfg2.win 2).blk t).view.read (Elt Ideal) (outArr2 V c) := by
  have h207 : t.val % 208 = 207 := (flush2_2 t).mp hf
  have htN : t.val < 26000 := lt_of_lt_of_eq t.isLt N_2
  have hg : t.val / 208 < 125 := by omega
  have hacc : acc2 V c t.succ = segBlock2 V c (t.val / 208) hg := by
    show accN2 V c (t.val + 1) = _
    rw [show t.val + 1 = t.val / 208 * 208 + 208 from by omega]
    exact acc_final2 V c (t.val / 208) hg
  show (cfg2.win 2).cut (grid2.coords t) ((dat2 (F := Ideal) V c).after 2 t) = _
  rw [after2_2, hacc]
  funext y
  refine (cut_apply2 t _ y).trans (Eq.trans ?_ (read_blk_apply2 t (outArr2 V c) y).symm)
  refine outArr_at2 V c _ hg y _ ?_ ?_
  · show win2_2.index t 0 * 800 + 1 * (y 0).val = _
    rw [(index2_2 t).1]
    omega
  · show win2_2.index t 1 * 64 + 1 * (y 1).val = _
    rw [(index2_2 t).2]
    omega

theorem cover2 (c : Dev nD) (i : ((cfg2.win 2).arr.view.loc (c.tc : Thread nD τ)).2.ty.Idx) :
    ∃ t : Fin cfg2.N, (cfg2.win 2).flush t = true ∧ i ∈ ((cfg2.win 2).blk t).view.set := by
  have h0 : (i 0 : ℕ) < 100000 := (i 0).isLt
  have h1 : (i 1 : ℕ) < 64 := (i 1).isLt
  obtain ⟨t, ht⟩ : ∃ t : Fin cfg2.N, t.val = (i 0 : ℕ) / 800 * 208 + 207 := ⟨⟨_, by rw [show cfg2.N = 26000 from N_2]; omega⟩, rfl⟩
  refine ⟨t, (flush2_2 t).mpr (by omega), ?_⟩
  show i ∈ ((View.whole main_v34).slice (win2_2.rect t)).set
  rw [View.set_slice_whole, Rect.mem_set_unit]
  intro ax
  match ax with
  | ⟨0, _⟩ =>
    show win2_2.index t 0 * 800 ≤ (i 0 : ℕ) ∧ (i 0 : ℕ) < win2_2.index t 0 * 800 + 800
    rw [(index2_2 t).1]
    omega
  | ⟨1, _⟩ =>
    show win2_2.index t 1 * 64 ≤ (i 1 : ℕ) ∧ (i 1 : ℕ) < win2_2.index t 1 * 64 + 64
    rw [(index2_2 t).2]
    omega

theorem arr_final2 (c : Dev nD) : (dat2 V c).arrAt 2 cfg2.N = outArr2 V c :=
  (dat2 V c).arrAt_eq_of_cover 2 (outArr2 V c) (flushed_eq2 V c) (cover2 c)

end Cert.KernelIdeal.Hand
end
-- ==== Proof.KI.Sca5Fin.lean ====
import proofs.«133651_j30339648979593_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Idealize.ShloMosaic Idealize.ShloMosaic.ValueIdx
open Cert.KernelIdeal Cert.KernelIdeal.Gen

def rowMaxBlk (A : S800x40.Idx → EReal) (p : Fin 800) : EReal :=
  max (Ideal.ofBits .f32 0xFF800000#32)
    ((Finset.univ : Finset (Fin 40)).fold max (Ideal.ofBits .f32 0xFF800000#32) (fun k => A (ix2 p k)))

theorem fin2_apply (A : S800x64.Idx → EReal) (p : Fin 800) (q : Fin 64) :
    k2_pay3 (F := Ideal) A (ix2 p q) = max (A (ix2 p q)) 0 := by
  show max (A (ix2 p q)) (Ideal.ofBits .f32 0x00000000#32) = _
  rw [Ideal.ofBits_zero_f32]

theorem lift_row (p : Fin 800) (k : Fin 40) : reduces_S800x40_S800.lift (ix1 p) k = ix2 p k :=
  funext fun a => Fin.ext (by match a with | ⟨0, _⟩ => rfl | ⟨1, _⟩ => rfl)

theorem rowMaxRed_apply (A : FVec Ideal S800x40 .f32) (p : Fin 800) (hφ : FKind.Formats .f32)
    (hacc : (0xFF800000#32 : BitVec FTy.f32.bits) = FKind.maximumf.neutral .f32 hφ) :
    multiReduction (F := Ideal) (φ := .f32) .maximumf [1] S800 A 0xFF800000#32 reduces_S800x40_S800 hφ hacc (ix1 p)
      = rowMaxBlk A p := by
  refine (Ideal.multiReduction_maximumf_single (φ := .f32) A 0xFF800000#32 reduces_S800x40_S800 hφ hacc (ix1 p)).trans ?_
  have hfold : (Finset.univ : Finset (Fin (S800x40.size 1))).fold max (FloatOps.ofBits (F := Ideal) .f32 0xFF800000#32)
      (A ∘ reduces_S800x40_S800.lift (ix1 p))
      = (Finset.univ : Finset (Fin 40)).fold max (Ideal.ofBits .f32 0xFF800000#32) (fun k => A (ix2 p k)) :=
    Finset.fold_congr (fun k _ => congrArg A (lift_row p k))
  rw [hfold]
  exact (max_eq_right ((Finset.le_fold_max _).2 (Or.inl le_rfl))).symm

theorem rowSumRed_apply (B : FVec Ideal S800x40 .f32) (p : Fin 800) (hφ : FKind.Formats .f32)
    (hacc : (0x00000000#32 : BitVec FTy.f32.bits) = FKind.add.neutral .f32 hφ) :
    multiReduction (F := Ideal) (φ := .f32) .add [1] S800 B 0x00000000#32 reduces_S800x40_S800 hφ hacc (ix1 p)
      = 0 + ∑ k : Fin 40, B (ix2 p k) := by
  refine (Ideal.multiReduction_add_single (φ := .f32) B 0x00000000#32 reduces_S800x40_S800 hφ hacc (ix1 p)).trans ?_
  rw [zero_add]
  exact Finset.sum_congr rfl (fun k _ => congrArg B (lift_row p k))

theorem colCast_apply {α : Type} (v : S800.Idx → α) (p : Fin 800) :
    shapeCast S800x1 v shapeCasts_S800_S800x1 (ix2 p (0 : Fin 1)) = v (ix1 p) :=
  shapeCast_apply v shapeCasts_S800_S800x1 (ix2 p (0 : Fin 1)) (ix1 p) (by
    rw [Shape.rowMajor_val_one, Shape.rowMajor_val_two]
    show p.val = p.val * 1 + 0
    omega)

theorem colBcast_apply {α : Type} (w : S800x1.Idx → α) (p : Fin 800) (k : Fin 40) :
    broadcastTo S800x40 w broadcasts_S800x1_S800x40 (ix2 p k) = w (ix2 p (0 : Fin 1)) :=
  broadcastTo_apply w broadcasts_S800x1_S800x40 (ix2 p k) (ix2 p (0 : Fin 1)) (fun a => match a with
    | ⟨0, _⟩ => by show p.val = if (800 : Nat) = 1 then 0 else p.val; rw [if_neg (by decide)]
    | ⟨1, _⟩ => by show (0 : Nat) = if (1 : Nat) = 1 then 0 else k.val; rw [if_pos rfl])

def maxCols (A : FVec Ideal S800x40 .f32) : FVec Ideal S800x40 .f32 :=
  broadcastTo S800x40 (shapeCast S800x1
    (multiReduction (F := Ideal) (φ := .f32) .maximumf [1] S800 A 0xFF800000#32 reduces_S800x40_S800 (.inl rfl) rfl)
    shapeCasts_S800_S800x1) broadcasts_S800x1_S800x40

theorem maxCols_apply (A : FVec Ideal S800x40 .f32) (p : Fin 800) (k : Fin 40) :
    maxCols A (ix2 p k) = rowMaxBlk A p := by
  unfold maxCols
  rw [colBcast_apply, colCast_apply]
  exact rowMaxRed_apply A p _ _

def shiftedBlk (A : FVec Ideal S800x40 .f32) : FVec Ideal S800x40 .f32 := subf A (maxCols A)

theorem shiftedBlk_apply (A : FVec Ideal S800x40 .f32) (p : Fin 800) (k : Fin 40) :
    shiftedBlk A (ix2 p k) = A (ix2 p k) - rowMaxBlk A p := by
  unfold shiftedBlk
  rw [subf_apply, maxCols_apply]

def lseCols (A : FVec Ideal S800x40 .f32) : FVec Ideal S800x40 .f32 :=
  broadcastTo S800x40 (log (shapeCast S800x1
    (multiReduction (F := Ideal) (φ := .f32) .add [1] S800 (exp (shiftedBlk A)) 0x00000000#32 reduces_S800x40_S800
      (.inl rfl) rfl)
    shapeCasts_S800_S800x1)) broadcasts_S800x1_S800x40

theorem lseCols_apply (A : FVec Ideal S800x40 .f32) (p : Fin 800) (k : Fin 40) :
    lseCols A (ix2 p k) = Ideal.log (0 + ∑ k' : Fin 40, Ideal.exp (shiftedBlk A (ix2 p k'))) := by
  unfold lseCols
  rw [colBcast_apply]
  show Ideal.log (shapeCast S800x1 _ shapeCasts_S800_S800x1 (ix2 p (0 : Fin 1))) = _
  rw [colCast_apply]
  exact congrArg Ideal.log (rowSumRed_apply (exp (shiftedBlk A)) p _ _)

theorem k5_pay3_eq (A : FVec Ideal S800x40 .f32) :
    k5_pay3 (F := Ideal) A = subf (shiftedBlk A) (lseCols A) := rfl

theorem fin5_apply (A : S800x40.Idx → EReal) (p : Fin 800) (q : Fin 40) :
    k5_pay3 (F := Ideal) A (ix2 p q)
      = (A (ix2 p q) - rowMaxBlk A p)
        - Ideal.log (0 + ∑ k : Fin 40, Ideal.exp (A (ix2 p k) - rowMaxBlk A p)) := by
  rw [k5_pay3_eq, subf_apply, lseCols_apply, shiftedBlk_apply]
  simp only [shiftedBlk_apply]

end Cert.KernelIdeal.Hand

end
-- ==== Proof.KI.Sca2Value.lean ====
import proofs.«133651_j30339648979593_1_alg».proof.Proof.KI.Sca2Acc
import proofs.«133651_j30339648979593_1_alg».proof.Proof.KI.Sca5Fin
import proofs.«133651_j30339648979593_1_alg».proof.Proof.KI.Spec
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem val2 (c : Dev nD) :
    (dat2 (F := Ideal) V c).arrAt 2 cfg2.N = fun i => max (segSum2 (V c main_v28) (V c main_v33) i) 0 := by
  refine (arr_final2 V c).trans ?_
  funext i
  obtain ⟨r, k, rfl⟩ : ∃ (r : Fin 100000) (k : Fin 64), i = ix2 r k := ⟨i 0, i 1, eq_ix2 i⟩
  show k2_pay3 (F := Ideal) (segBlock2 V c (r.val / 800) _) (ix2 ⟨r.val % 800, _⟩ k) = _
  rw [fin2_apply, segBlock_row2]

end Cert.KernelIdeal.Hand

end
-- ==== Proof.KI.Sca5Value.lean ====
import proofs.«133651_j30339648979593_1_alg».proof.Proof.KI.Sca5Acc
import proofs.«133651_j30339648979593_1_alg».proof.Proof.KI.Sca5Fin
import proofs.«133651_j30339648979593_1_alg».proof.Proof.KI.Spec
import Idealize.ShloMosaic.Lib.ValueIdx

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem rowMaxBlk_segBlock5 (c : Dev nD) (r : Fin 100000) :
    rowMaxBlk (segBlock5 V c (r.val / 800) (by have hr := r.isLt; omega)) ⟨r.val % 800, Nat.mod_lt _ (by decide)⟩
      = rowMax5 (segSum5 (V c main_v28) (V c main_v38)) r := by
  unfold rowMaxBlk rowMax5
  simp only [segBlock_row5]

theorem val5 (c : Dev nD) :
    (dat5 (F := Ideal) V c).arrAt 2 cfg5.N = lsmSpec5 (segSum5 (V c main_v28) (V c main_v38)) := by
  refine (arr_final5 V c).trans ?_
  funext i
  obtain ⟨r, q, rfl⟩ : ∃ (r : Fin 100000) (q : Fin 40), i = ix2 r q := ⟨i 0, i 1, eq_ix2 i⟩
  show k5_pay3 (F := Ideal) (segBlock5 V c (r.val / 800) _) (ix2 ⟨r.val % 800, _⟩ q)
    = (segSum5 (V c main_v28) (V c main_v38) (ix2 r q) - rowMax5 (segSum5 (V c main_v28) (V c main_v38)) r)
      - Ideal.log (0 + ∑ k : Fin 40,
          Ideal.exp (segSum5 (V c main_v28) (V c main_v38) (ix2 r k) - rowMax5 (segSum5 (V c main_v28) (V c main_v38)) r))
  rw [fin5_apply, rowMaxBlk_segBlock5]
  simp only [segBlock_row5]

end Cert.KernelIdeal.Hand

end
-- ==== Proof.KI.Chain.lean ====
import proofs.«133651_j30339648979593_1_alg».proof.Proof.KI.Run
import proofs.«133651_j30339648979593_1_alg».proof.Proof.KI.Spec
import proofs.«133651_j30339648979593_1_alg».proof.Proof.KI.Glue
import proofs.«133651_j30339648979593_1_alg».proof.Proof.KI.Lin0Value
import proofs.«133651_j30339648979593_1_alg».proof.Proof.KI.Lin3Value
import proofs.«133651_j30339648979593_1_alg».proof.Proof.KI.Gat1Value
import proofs.«133651_j30339648979593_1_alg».proof.Proof.KI.Gat4Value
import proofs.«133651_j30339648979593_1_alg».proof.Proof.KI.Sca2Value
import proofs.«133651_j30339648979593_1_alg».proof.Proof.KI.Sca5Value
set_option maxRecDepth 16384
noncomputable section
namespace Cert.KernelIdeal.Hand
open Idealize.ShloMosaic Idealize.ShloMosaic.TcCoe Idealize.ShloMosaic.Tactic
open Idealize.ShloMosaic.StableHlo (after_of_writes_sub)
open Idealize.SL Idealize.SL.Sem
open Idealize.ShloMosaic.Pipeline (Dat Cfg Window)
open Idealize.ShloMosaic.ValueIdx
open Cert.KernelIdeal Cert.KernelIdeal.Gen

variable (m : (ℓ : Loc nD τ sig) → Buf (Elt Ideal) ℓ) (c : Dev nD)

theorem w8_src : W8 m c (Proc.devRef .tc main_v27) = W7 m c (Proc.devRef .tc main_v27) := W8_of_ne m c main_v27 (by decide)
theorem w8_nrm : W8 m c (Proc.devRef .tc main_v29) = W7 m c (Proc.devRef .tc main_v29) := W8_of_ne m c main_v29 (by decide)

theorem w9_dst : W9 m c (Proc.devRef .tc main_v28) = W7 m c (Proc.devRef .tc main_v28) :=
  (W9_of_ne m c main_v28 (by decide)).trans (W8_of_ne m c main_v28 (by decide))

theorem w11_agg : W11 m c (Proc.devRef .tc main_v34) = W10 m c (Proc.devRef .tc main_v34) :=
  after_of_writes_sub hostOps3 _ hostOps3_writes (by decide)

-- an input array of the first gather is written by nothing up to the second gather
theorem w12_edge (w : Fin cfg1.W) (h : w = 0 ∨ w = 1) :
    W12 m c (Proc.devRef .tc (Pipeline.arrRef spec1 w)) = W7 m c (Proc.devRef .tc (Pipeline.arrRef spec1 w)) := by
  have k := (W9_arr m c w).trans <|
    ((dat1 (V8 m) c).arrAt_in w (by rcases h with rfl | rfl <;> rfl) _).trans (A_eq1 (V8 m) c w)
  rcases h with rfl | rfl <;> exact
    (W12_of_ne m c _ (by decide)).trans <| (after_of_writes_sub hostOps3 _ hostOps3_writes (by decide)).trans <|
    (W10_of_ne m c _ (by decide)).trans <| k.trans (W8_of_ne m c _ (by decide))

theorem w12_src : W12 m c (Proc.devRef .tc main_v27) = W7 m c (Proc.devRef .tc main_v27) := w12_edge m c 0 (.inl rfl)
theorem w12_nrm : W12 m c (Proc.devRef .tc main_v29) = W7 m c (Proc.devRef .tc main_v29) := w12_edge m c 1 (.inr rfl)

theorem w13_dst : W13 m c (Proc.devRef .tc main_v28) = W7 m c (Proc.devRef .tc main_v28) :=
  (W13_of_ne m c main_v28 (by decide)).trans <| (W12_of_ne m c main_v28 (by decide)).trans <|
  (after_of_writes_sub hostOps3 _ hostOps3_writes (by decide)).trans <| (W10_arr m c 0).trans <|
  ((dat2 (V9 m) c).arrAt_in 0 rfl _).trans <| (A_eq2 (V9 m) c 0).trans (w9_dst m c)

theorem w10_arg3 : W10 m c (Proc.devRef .tc main_arg3) = m ((c : Thread nD τ).loc main_arg3) :=
  (W10_of_ne m c main_arg3 (by decide)).trans <| (W9_of_ne m c main_arg3 (by decide)).trans <|
  (W8_of_ne m c main_arg3 (by decide)).trans (w7_arg m c (.inr (.inl rfl)))

theorem w10_arg4 : W10 m c (Proc.devRef .tc main_arg4) = m ((c : Thread nD τ).loc main_arg4) :=
  (W10_of_ne m c main_arg4 (by decide)).trans <| (W9_of_ne m c main_arg4 (by decide)).trans <|
  (W8_of_ne m c main_arg4 (by decide)).trans (w7_arg m c (.inr (.inr rfl)))

theorem w8_h : W8 m c (Proc.devRef .tc main_v32)
    = linSpec0 (W7 m c (Proc.devRef .tc main_arg0)) (W7 m c (Proc.devRef .tc main_v30)) (W7 m c (Proc.devRef .tc main_v31)) :=
  (W8_arr m c 3).trans (val0 (V7 m) c)

theorem w9_msg : W9 m c (Proc.devRef .tc main_v33)
    = gatSpec1 (W7 m c (Proc.devRef .tc main_v27)) (W7 m c (Proc.devRef .tc main_v29)) (W8 m c (Proc.devRef .tc main_v32)) := by
  rw [← w8_src m c, ← w8_nrm m c]; exact (W9_arr m c 3).trans (val1 (V8 m) c)

theorem w10_agg : W10 m c (Proc.devRef .tc main_v34)
    = fun i => max (segSum2 (W7 m c (Proc.devRef .tc main_v28)) (W9 m c (Proc.devRef .tc main_v33)) i) 0 := by
  rw [← w9_dst m c]; exact (W10_arr m c 2).trans (val2 (V9 m) c)

theorem w12_h : W12 m c (Proc.devRef .tc main_v37)
    = linSpec3 (W10 m c (Proc.devRef .tc main_v34)) (W11 m c (Proc.devRef .tc main_v35)) (W11 m c (Proc.devRef .tc main_v36)) := by
  rw [← w11_agg m c]; exact (W12_arr m c 3).trans (val3 (V11 m) c)

theorem w13_msg : W13 m c (Proc.devRef .tc main_v38)
    = gatSpec4 (W7 m c (Proc.devRef .tc main_v27)) (W7 m c (Proc.devRef .tc main_v29)) (W12 m c (Proc.devRef .tc main_v37)) := by
  rw [← w12_src m c, ← w12_nrm m c]; exact (W13_arr m c 3).trans (val4 (V12 m) c)

theorem w14_out : W14 m c (Proc.devRef .tc main_v39)
    = lsmSpec5 (segSum5 (W7 m c (Proc.devRef .tc main_v28)) (W13 m c (Proc.devRef .tc main_v38))) := by
  rw [← w13_dst m c]; exact (W14_arr m c 2).trans (val5 (V13 m) c)

end Cert.KernelIdeal.Hand
end
-- ==== Proof.Ref.Read.lean ====
import proofs.«133651_j30339648979593_1_alg».proof.Proof.Ref.Stages
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.SL.Sem Idealize.ShloMosaic.ValueIdx

theorem splat_apply {t : Shape} (h : S_.BroadcastsInDim t ![]) (b : BitVec 32) (j : t.Idx) :
    broadcastInDim t ![] h (constant (F := Ideal) S_ .f32 b) j = Ideal.ofBits .f32 b := rfl

theorem colOf_apply (s : IVec S1700000 32) (e : Fin 1700000) : colOf s (ix2 e (0 : Fin 1)) = s (ix1 e) := by
  unfold colOf
  exact broadcastInDim_apply _ bcast_S1700000_S1700000x1_0 s (ix2 e (0 : Fin 1)) (ix1 e) (fun a => match a with
    | ⟨0, _⟩ => by show e.val = if (1700000 : Nat) = 1 then 0 else e.val; rw [if_neg (by decide)])

theorem nodeCol_apply {α : Type} (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

theorem nodeRows_apply {α : Type} (w : S100000x1.Idx → α) (r : Fin 100000) (d : Fin 40) :
    broadcastInDim S100000x40 ![0, 1] bcast_S100000x1_S100000x40_0_1 w (ix2 r d) = w (ix2 r (0 : Fin 1)) :=
  broadcastInDim_apply _ bcast_S100000x1_S100000x40_0_1 w (ix2 r d) (ix2 r (0 : Fin 1)) (fun a => match a with
    | ⟨0, _⟩ => by show r.val = if (100000 : Nat) = 1 then 0 else r.val; rw [if_neg (by decide)]
    | ⟨1, _⟩ => by show 0 = if (1 : Nat) = 1 then 0 else d.val; rw [if_pos rfl])

section Dense
variable {K N : Nat} (wfD : DotDims.WF ⟨2, ![100000, K]⟩ ⟨2, ![K, N]⟩ ⟨2, ![100000, N]⟩ [1] [0] [0] [1] [] [])

abbrev dotW : DotDims ⟨2, ![100000, K]⟩ ⟨2, ![K, N]⟩ ⟨2, ![100000, N]⟩ := ⟨[1], [0], [0], [1], [], [], wfD⟩

-- (x Wᵀ + b)[r, d] = ∑ₖ x[r, k] · W[d, k] + b[d], at any extents K and N.
theorem linW_apply (ht : (⟨2, ![N, K]⟩ : Shape).Transposes [1, 0] ⟨2, ![K, N]⟩)
    (hb : (⟨1, ![N]⟩ : Shape).BroadcastsInDim ⟨2, ![1, N]⟩ ![1])
    (hr : (⟨2, ![1, N]⟩ : Shape).BroadcastsInDim ⟨2, ![100000, N]⟩ ![0, 1])
    (x : FVec Ideal ⟨2, ![100000, K]⟩ .f32) (W : FVec Ideal ⟨2, ![N, K]⟩ .f32) (b : FVec Ideal ⟨1, ![N]⟩ .f32)
    (r : Fin 100000) (d : Fin N) :
    addf (F := Ideal) (Host.dotGeneral (F := Ideal) (dotW wfD) none x (transpose ⟨2, ![K, N]⟩ [1, 0] W ht))
        (broadcastInDim ⟨2, ![100000, N]⟩ ![0, 1] hr (broadcastInDim ⟨2, ![1, N]⟩ ![1] hb b)) (ix2 r d)
      = (∑ k : Fin K, x (ix2 r k) * W (ix2 d k)) + b (ix1 d) := by
  have hd := d.isLt
  rw [addf_apply]
  refine congrArg₂ (· + ·) ?_
    ((broadcastInDim_apply _ hr (broadcastInDim ⟨2, ![1, N]⟩ ![1] hb b) (ix2 r d) (ix2 (0 : Fin 1) d) (fun a => match a with
      | ⟨0, _⟩ => by show 0 = if (1 : Nat) = 1 then 0 else r.val; rw [if_pos rfl]
      | ⟨1, _⟩ => by show d.val = if N = 1 then 0 else d.val; split <;> omega)).trans
    (broadcastInDim_apply _ hb b (ix2 (0 : Fin 1) d) (ix1 d) (fun a => match a with
      | ⟨0, _⟩ => by show d.val = if N = 1 then 0 else d.val; split <;> omega)))
  generalize hy : transpose ⟨2, ![K, N]⟩ [1, 0] W ht = y
  simp only [Host.dotGeneral]
  rw [Ideal.dotGeneral_apply, ← Equiv.sum_comp (contrEquiv1 (dotW wfD) K rfl rfl).symm]
  refine Finset.sum_congr rfl fun k _ => ?_
  have hk := contrEquiv1_symm_val (dotW wfD) K rfl rfl k
  have el : (dotW wfD).lhsIdx (ix2 r d) ((contrEquiv1 (dotW wfD) K rfl rfl).symm k) = ix2 r k := funext fun a => Fin.ext (by
    match a with
    | ⟨0, _⟩ =>
      show ((dotW wfD).lhsIdx (ix2 r d) _ 0).val = r.val
      unfold DotDims.lhsIdx
      rw [dif_neg (show ¬ (0 : Fin 2) ∈ ([] : List (Fin 2)) from List.not_mem_nil),
        dif_pos (show (0 : Fin 2) ∈ [(0 : Fin 2)] from List.mem_singleton.mpr rfl)]
      rfl
    | ⟨1, _⟩ => exact ((dotW wfD).lhsIdx_val_of_single rfl _ _).trans hk)
  have er : (dotW wfD).rhsIdx (ix2 r d) ((contrEquiv1 (dotW wfD) K rfl rfl).symm k) = ix2 k d := funext fun a => Fin.ext (by
    match a with
    | ⟨0, _⟩ => exact ((dotW wfD).rhsIdx_val_of_single rfl _ _).trans hk
    | ⟨1, _⟩ =>
      show ((dotW wfD).rhsIdx (ix2 r d) _ 1).val = d.val
      unfold DotDims.rhsIdx
      rw [dif_neg (show ¬ (1 : Fin 2) ∈ ([] : List (Fin 2)) from List.not_mem_nil),
        dif_pos (show (1 : Fin 2) ∈ [(1 : Fin 2)] from List.mem_singleton.mpr rfl)]
      rfl)
  rw [el, er, ← hy]
  exact congrArg (x (ix2 r k) * ·) (transpose_apply [1, 0] W ht (ix2 k d) (ix2 d k) (fun b => match b with
    | ⟨0, _⟩ => rfl
    | ⟨1, _⟩ => rfl))

end Dense

theorem lin1_apply (x : FVec Ideal S100000x128 .f32) (W1 : FVec Ideal S64x128 .f32) (b1 : FVec Ideal S64 .f32)
    (r : Fin 100000) (d : Fin 64) :
    lin1 x W1 b1 (ix2 r d) = (∑ k : Fin 128, x (ix2 r k) * W1 (ix2 d k)) + b1 (ix1 d) :=
  linW_apply _ _ _ _ x W1 b1 r d

theorem lin2_apply (h : FVec Ideal S100000x64 .f32) (W2 : FVec Ideal S40x64 .f32) (b2 : FVec Ideal S40 .f32)
    (r : Fin 100000) (d : Fin 40) :
    lin2 h W2 b2 (ix2 r d) = (∑ k : Fin 64, h (ix2 r k) * W2 (ix2 d k)) + b2 (ix1 d) :=
  linW_apply _ _ _ _ h W2 b2 r d

theorem relu_apply (h : FVec Ideal S100000x64 .f32) (i : S100000x64.Idx) : relu h i = max (h i) 0 := by
  unfold relu
  rw [maximumf_apply, splat_apply, Ideal.ofBits_zero_f32]

theorem rowMax_apply (h : FVec Ideal S100000x40 .f32) (r : Fin 100000) :
    rowMax h (ix1 r) = max (Ideal.ofBits .f32 0xFF800000#32)
      ((Finset.univ : Finset (Fin 40)).fold max (Ideal.ofBits .f32 0xFF800000#32) (fun k => h (ix2 r k))) := by
  unfold rowMax
  rw [maximumf_apply, splat_apply]
  refine congrArg (max (Ideal.ofBits .f32 0xFF800000#32) ·) ?_
  rw [Host.reduce_eq_fold_single (FloatOps.maximumf (F := Ideal) (φ := .f32)) h (constant (F := Ideal) S_ .f32 0xFF800000#32)
    reducesTo_S100000x40_S100000_d1 (by decide) h_S_ (ix1 r)]
  exact Finset.fold_congr (fun k _ => congrArg h (funext fun a => Fin.ext (by match a with | ⟨0, _⟩ => rfl | ⟨1, _⟩ => rfl)))

theorem shifted_apply (h : FVec Ideal S100000x40 .f32) (r : Fin 100000) (d : Fin 40) :
    shifted h (ix2 r d) = h (ix2 r d) - rowMax h (ix1 r) := by
  unfold shifted
  rw [subf_apply, nodeRows_apply, nodeCol_apply]

theorem rowSumExp_apply (h : FVec Ideal S100000x40 .f32) (r : Fin 100000) :
    rowSumExp h (ix1 r) = 0 + ∑ k : Fin 40, Ideal.exp (shifted h (ix2 r k)) := by
  unfold rowSumExp
  generalize shifted h = y
  simp only [Host.reduceAdd, Ideal.hostReduceAdd_def]
  rw [Ideal.hostReduceAdd_single reducesTo_S100000x40_S100000_d1 (by decide)]
  refine congrArg₂ (· + ·) Ideal.ofBits_zero_f32 (Finset.sum_congr rfl fun k _ => ?_)
  exact congrArg (fun i => Ideal.exp (y i)) (funext fun a => Fin.ext (by match a with | ⟨0, _⟩ => rfl | ⟨1, _⟩ => rfl))

theorem logSoftmax_apply (h : FVec Ideal S100000x40 .f32) (r : Fin 100000) (d : Fin 40) :
    logSoftmax h (ix2 r d) = shifted h (ix2 r d) - Ideal.log (rowSumExp h (ix1 r)) := by
  unfold logSoftmax
  rw [subf_apply, nodeRows_apply]
  unfold Host.log
  rw [Ideal.hostUnary_log_def, nodeCol_apply]

theorem row0_apply (ei : IVec S2x1600000 32) (e : Fin 1600000) :
    shapeCast S1600000 (extractStridedSlice S1x1600000 ![0, 0] ei slices_S2x1600000_S1x1600000_0_0)
        shapeCasts_S1x1600000_S1600000 (ix1 e) = ei (ix2 (0 : Fin 2) e) :=
  (shapeCast_apply (extractStridedSlice S1x1600000 ![0, 0] ei slices_S2x1600000_S1x1600000_0_0)
      shapeCasts_S1x1600000_S1600000 (ix1 e) (ix2 (0 : Fin 1) e)
      (by rewrite [Shape.rowMajor_val_two, Shape.rowMajor_val_one]; show 0 * 1600000 + e.val = e.val; omega)).trans
  (extractStridedSlice_apply ![0, 0] ei slices_S2x1600000_S1x1600000_0_0 (ix2 (0 : Fin 1) e) (ix2 (0 : Fin 2) e)
    (fun a => match a with
      | ⟨0, _⟩ => by show 0 = 0 + 0; rfl
      | ⟨1, _⟩ => by show e.val = 0 + e.val; omega))

theorem withLoops_apply (A : IVec S1600000 32) (e : Fin 1700000) :
    concatenate S1700000 0 [⟨S1600000, A⟩, ⟨S100000, iotaInDim S100000 32 0⟩] concatenates_S1600000_S100000_S1700000_d0 (ix1 e)
      = if h : e.val < 1600000 then A (ix1 ⟨e.val, h⟩) else BitVec.ofNat 32 (e.val - 1600000) := by
  by_cases h : e.val < 1600000
  · rw [dif_pos h]
    exact concatenate_pair_apply_left (0 : Fin S1700000.rank) A (iotaInDim S100000 32 0)
      concatenates_S1600000_S100000_S1700000_d0 (ix1 e) rfl (ix1 ⟨e.val, h⟩) (fun b => match b with | ⟨0, _⟩ => rfl)
  · rw [dif_neg h]
    have he := e.isLt
    exact concatenate_pair_apply_right (0 : Fin S1700000.rank) A (iotaInDim S100000 32 0)
      concatenates_S1600000_S100000_S1700000_d0 (ix1 e) rfl rfl (ix1 ⟨e.val - 1600000, by omega⟩)
      (fun b hb => absurd (Fin.ext (by have hb1 : b.val < 1 := b.isLt; show b.val = 0; omega)) hb)
      (by show (e.val - 1600000) + 1600000 = e.val; omega)

theorem srcOf_apply (ei : IVec S2x1600000 32) (e : Fin 1700000) :
    srcOf ei (ix1 e) = if h : e.val < 1600000 then ei (ix2 (0 : Fin 2) ⟨e.val, h⟩) else BitVec.ofNat 32 (e.val - 1600000) := by
  unfold srcOf
  rw [withLoops_apply]
  by_cases h : e.val < 1600000
  · rw [dif_pos h, dif_pos h, row0_apply]
  · rw [dif_neg h, dif_neg h]

theorem normIdx_of_nonneg (s : IVec S1700000 32) (i : S1700000.Idx) (h : 0 ≤ (s i).toInt) : normIdx s i = s i := by
  show Scalar.select (IntOp.cmpi .slt (s i) 0#32) (IntOp.addi (s i) 100000#32) (s i) = s i
  have hc : IntOp.cmpi .slt (s i) 0#32 = 0#1 := by
    have h0 : (0#32 : BitVec 32).toInt = 0 := by decide
    have hs : (s i).slt 0#32 = false := by
      simp only [BitVec.slt, h0]
      exact decide_eq_false (Int.not_lt.mpr h)
    show BitVec.ofBool ((s i).slt 0#32) = 0#1
    rw [hs]; rfl
  rw [hc]
  exact select_zero _ _

def srcNode (ei : IVec S2x1600000 32)
    (hsrc : ∀ e : Fin 1700000, 0 ≤ (srcOf ei (ix1 e)).toInt ∧ (srcOf ei (ix1 e)).toInt < 100000) (e : Fin 1700000) :
    Fin 100000 :=
  ⟨(srcOf ei (ix1 e)).toInt.toNat, by have := hsrc e; omega⟩

theorem srcNode_spec (ei : IVec S2x1600000 32)
    (hsrc : ∀ e : Fin 1700000, 0 ≤ (srcOf ei (ix1 e)).toInt ∧ (srcOf ei (ix1 e)).toInt < 100000) (e : Fin 1700000) :
    (srcOf ei (ix1 e)).toInt = (((srcNode ei hsrc e).val : ℕ) : ℤ) := by
  have := hsrc e
  show _ = (((srcOf ei (ix1 e)).toInt.toNat : ℕ) : ℤ)
  omega

theorem scatterAdd_apply {s si su : Shape} (D : ScatterDims s si su) {w : Nat} (x : FVec Ideal s .f32) (idx : IVec si w)
    (upd : FVec Ideal su .f32) (i : s.Idx) :
    Host.scatterAdd (F := Ideal) D x idx upd i
      = x i + ∑ j ∈ Finset.univ.filter (fun j => D.resultIdx? j idx = some i), upd j := rfl

theorem resultIdx?_eq_some_iff {s si u : Shape} (D : ScatterDims s si u) {w : Nat} (j : u.Idx) (idx : IVec si w) (i : s.Idx) :
    D.resultIdx? j idx = some i ↔ ∀ a, D.start j idx a + ((D.window j a : ℕ) : ℤ) = (((i a).val : ℕ) : ℤ) := by
  unfold ScatterDims.resultIdx?
  split
  · rename_i hall
    constructor
    · intro hf a
      have hfa := congrFun (Option.some.inj hf) a
      have h1 := (hall a).1
      rw [← hfa]
      show _ = (((D.start j idx a + ((D.window j a : ℕ) : ℤ)).toNat : ℕ) : ℤ)
      omega
    · intro hi
      refine congrArg some (funext fun a => Fin.ext ?_)
      have h1 := hi a
      show (D.start j idx a + ((D.window j a : ℕ) : ℤ)).toNat = (i a).val
      omega
  · rename_i hnot
    constructor
    · intro hf; exact absurd hf (by simp)
    · intro hi
      exact (hnot fun a => by have h1 := hi a; have h2 := (i a).isLt; constructor <;> omega).elim

section Wide
variable {w : Nat}
  (wfS : ScatterDims.WF ⟨2, ![100000, w]⟩ S1700000x1 ⟨2, ![1700000, w]⟩ [1] [0] [0] 1)
  (wfG : GatherDims.WF ⟨2, ![100000, w]⟩ S1700000x1 ⟨2, ![1700000, w]⟩ [1] [0] [] [0] [] 1 ![1, w])

abbrev scatW : ScatterDims ⟨2, ![100000, w]⟩ S1700000x1 ⟨2, ![1700000, w]⟩ := ⟨[1], [0], [0], 1, wfS⟩

abbrev gathW : GatherDims ⟨2, ![100000, w]⟩ S1700000x1 ⟨2, ![1700000, w]⟩ := ⟨[1], [0], [], [], [0], 1, ![1, w], wfG⟩

-- Update (e, b) lands at (n, d) exactly when edge e's target is n and b = d.
theorem scatTargetW_iff (idx : IVec S1700000x1 32) (e : Fin 1700000) (b : Fin w) (n : Fin 100000) (d : Fin w) :
    (scatW wfS).resultIdx? (ix2 e b) idx = some (ix2 n d)
      ↔ (idx (ix2 e (0 : Fin 1))).toInt = ((n.val : ℕ) : ℤ) ∧ b = d := by
  have s0 : (scatW wfS).start (ix2 e b) idx 0 = (idx (ix2 e (0 : Fin 1))).toInt :=
    (dif_pos (show (0 : Fin 2) ∈ [(0 : Fin 2)] from List.mem_singleton.mpr rfl)).trans
      (congrArg (fun i => (idx i).toInt) (funext fun a => Fin.ext (by match a with | ⟨0, _⟩ => rfl | ⟨1, _⟩ => rfl)))
  have s1 : (scatW wfS).start (ix2 e b) idx 1 = 0 := dif_neg (show ¬ (1 : Fin 2) ∈ [(0 : Fin 2)] by decide)
  have w0 : (scatW wfS).window (ix2 e b) 0 = 0 := dif_neg (show ¬ (0 : Fin 2) ∈ [(1 : Fin 2)] by decide)
  have w1 : (scatW wfS).window (ix2 e b) 1 = b.val := dif_pos (show (1 : Fin 2) ∈ [(1 : Fin 2)] by decide)
  refine (resultIdx?_eq_some_iff (scatW wfS) (ix2 e b) idx (ix2 n d)).trans ⟨fun hall => ?_, ?_⟩
  · have h0 : _ = ((n.val : ℕ) : ℤ) := hall 0
    have h1 : _ = ((d.val : ℕ) : ℤ) := hall 1
    rw [s0, w0] at h0
    rw [s1, w1] at h1
    exact ⟨by omega, Fin.ext (by omega)⟩
  · rintro ⟨hz, rfl⟩ a
    match a with
    | ⟨0, _⟩ =>
      show (scatW wfS).start (ix2 e b) idx 0 + (((scatW wfS).window (ix2 e b) 0 : ℕ) : ℤ) = ((n.val : ℕ) : ℤ)
      rw [s0, w0]; omega
    | ⟨1, _⟩ =>
      show (scatW wfS).start (ix2 e b) idx 1 + (((scatW wfS).window (ix2 e b) 1 : ℕ) : ℤ) = ((b.val : ℕ) : ℤ)
      rw [s1, w1]; omega

-- Row p of x, when edge e's index is the node number p.
theorem gatherRowsW_apply (x : FVec Ideal ⟨2, ![100000, w]⟩ .f32) (idx : IVec S1700000x1 32) (e : Fin 1700000) (d : Fin w)
    (p : Fin 100000) (hp : (idx (ix2 e (0 : Fin 1))).toInt = ((p.val : ℕ) : ℤ)) :
    Host.gather (gathW wfG) x idx (ix2 e d) = x (ix2 p d) := by
  unfold Host.gather
  refine congrArg x (funext fun a => Fin.ext ?_)
  match a with
  | ⟨0, _⟩ =>
    show (gathW wfG).start (ix2 e d) idx 0 + (gathW wfG).batchCoord (ix2 e d) 0 + (gathW wfG).offCoord (ix2 e d) 0 = p.val
    rw [GatherDims.batchCoord_eq_zero (gathW wfG) (ix2 e d) 0 List.not_mem_nil,
      GatherDims.offCoord_eq_zero (gathW wfG) (ix2 e d) 0 (show ¬ (0 : Fin 2) ∈ [(1 : Fin 2)] by decide)]
    have hs : (gathW wfG).start (ix2 e d) idx 0 = min (idx (ix2 e (0 : Fin 1))).toInt.toNat (100000 - 1) :=
      (dif_pos (show (0 : Fin 2) ∈ [(0 : Fin 2)] from List.mem_singleton.mpr rfl)).trans
        (congrArg (fun i => min (idx i).toInt.toNat (100000 - 1))
          (funext fun b => Fin.ext (by match b with | ⟨0, _⟩ => rfl | ⟨1, _⟩ => rfl)))
    rw [hs, hp]
    have hlt := p.isLt
    omega
  | ⟨1, _⟩ =>
    show (gathW wfG).start (ix2 e d) idx 1 + (gathW wfG).batchCoord (ix2 e d) 1 + (gathW wfG).offCoord (ix2 e d) 1 = d.val
    rw [GatherDims.batchCoord_eq_zero (gathW wfG) (ix2 e d) 1 List.not_mem_nil,
      show (gathW wfG).start (ix2 e d) idx 1 = 0 from dif_neg (show ¬ (1 : Fin 2) ∈ [(0 : Fin 2)] by decide),
      show (gathW wfG).offCoord (ix2 e d) 1 = d.val from dif_pos (show (1 : Fin 2) ∈ [(1 : Fin 2)] by decide)]
    omega

theorem edgeRowsW_apply {α : Type} (hb : S1700000x1.BroadcastsInDim ⟨2, ![1700000, w]⟩ ![0, 1]) (v : S1700000.Idx → α)
    (e : Fin 1700000) (d : Fin w) :
    broadcastInDim ⟨2, ![1700000, w]⟩ ![0, 1] hb (broadcastInDim S1700000x1 ![0] bcast_S1700000_S1700000x1_0 v) (ix2 e d)
      = v (ix1 e) :=
  (broadcastInDim_apply _ hb (broadcastInDim S1700000x1 ![0] bcast_S1700000_S1700000x1_0 v) (ix2 e d)
      (ix2 e (0 : Fin 1)) (fun a => match a with
    | ⟨0, _⟩ => by show e.val = if (1700000 : Nat) = 1 then 0 else e.val; rw [if_neg (by decide)]
    | ⟨1, _⟩ => by show 0 = if (1 : Nat) = 1 then 0 else d.val; rw [if_pos rfl])).trans
  (broadcastInDim_apply _ bcast_S1700000_S1700000x1_0 v (ix2 e (0 : Fin 1)) (ix1 e) (fun a => match a with
    | ⟨0, _⟩ => by show e.val = if (1700000 : Nat) = 1 then 0 else e.val; rw [if_neg (by decide)]))

-- (layer h)[n, d] = ∑ over the edges e with target n of weight e · h[source e, d], at any width w.
theorem layerW_apply (hz : S_.BroadcastsInDim ⟨2, ![100000, w]⟩ ![]) (hb : S1700000x1.BroadcastsInDim ⟨2, ![1700000, w]⟩ ![0, 1])
    (s t : IVec S1700000 32) (nrm : FVec Ideal S1700000 .f32) (h : FVec Ideal ⟨2, ![100000, w]⟩ .f32)
    (node : Fin 1700000 → Fin 100000) (hnode : ∀ e, (s (ix1 e)).toInt = (((node e).val : ℕ) : ℤ)) (n : Fin 100000) (d : Fin w) :
    Host.scatterAdd (F := Ideal) (scatW wfS)
        (broadcastInDim ⟨2, ![100000, w]⟩ ![] hz (constant (F := Ideal) S_ .f32 0x00000000#32)) (colOf t)
        (mulf (F := Ideal)
          (broadcastInDim ⟨2, ![1700000, w]⟩ ![0, 1] hb (broadcastInDim S1700000x1 ![0] bcast_S1700000_S1700000x1_0 nrm))
          (Host.gather (gathW wfG) h (colOf (normIdx s)))) (ix2 n d)
      = ∑ e ∈ Finset.univ.filter (fun e : Fin 1700000 => (t (ix1 e)).toInt = ((n.val : ℕ) : ℤ)),
          nrm (ix1 e) * h (ix2 (node e) d) := by
  rw [scatterAdd_apply, splat_apply, Ideal.ofBits_zero_f32, zero_add, Finset.sum_filter, Finset.sum_filter, sum_idx2]
  refine Finset.sum_congr rfl fun e _ => ?_
  have hc : ∀ b : Fin w, (scatW wfS).resultIdx? (ix2 e b) (colOf t) = some (ix2 n d)
      ↔ (t (ix1 e)).toInt = ((n.val : ℕ) : ℤ) ∧ b = d := fun b => by rw [scatTargetW_iff, colOf_apply]
  by_cases hz' : (t (ix1 e)).toInt = ((n.val : ℕ) : ℤ)
  · rw [if_pos hz', Finset.sum_eq_single d (fun b _ hbd => if_neg fun hcond => hbd ((hc b).mp hcond).2)
      (fun hd => absurd (Finset.mem_univ d) hd), if_pos ((hc d).mpr ⟨hz', rfl⟩), mulf_apply, edgeRowsW_apply]
    refine congrArg (nrm (ix1 e) * ·) (gatherRowsW_apply wfG h _ e d (node e) ?_)
    rw [colOf_apply, normIdx_of_nonneg s (ix1 e) (by rw [hnode e]; omega), hnode e]
  · rw [if_neg hz']
    exact Finset.sum_eq_zero fun b _ => if_neg fun hcond => hz' ((hc b).mp hcond).1

end Wide

theorem layer64_apply (ei : IVec S2x1600000 32) (h : FVec Ideal S100000x64 .f32) (node : Fin 1700000 → Fin 100000)
    (hnode : ∀ e, (srcOf ei (ix1 e)).toInt = (((node e).val : ℕ) : ℤ)) (n : Fin 100000) (d : Fin 64) :
    layer64 ei h (ix2 n d)
      = ∑ e ∈ Finset.univ.filter (fun e : Fin 1700000 => (dstOf ei (ix1 e)).toInt = ((n.val : ℕ) : ℤ)),
          normOf ei (ix1 e) * h (ix2 (node e) d) :=
  layerW_apply _ _ _ _ _ _ _ h node hnode n d

theorem layer40_apply (ei : IVec S2x1600000 32) (h : FVec Ideal S100000x40 .f32) (node : Fin 1700000 → Fin 100000)
    (hnode : ∀ e, (srcOf ei (ix1 e)).toInt = (((node e).val : ℕ) : ℤ)) (n : Fin 100000) (d : Fin 40) :
    layer40 ei h (ix2 n d)
      = ∑ e ∈ Finset.univ.filter (fun e : Fin 1700000 => (dstOf ei (ix1 e)).toInt = ((n.val : ℕ) : ℤ)),
          normOf ei (ix1 e) * h (ix2 (node e) d) :=
  layerW_apply _ _ _ _ _ _ _ h node hnode n d

end Cert.ReferenceIdeal.RefValue

end
-- ==== Proof.LayerBridge.lean ====
import proofs.«133651_j30339648979593_1_alg».proof.Proof.KI.Spec
import proofs.«133651_j30339648979593_1_alg».proof.Proof.LibSegmentSum
import proofs.«133651_j30339648979593_1_alg».proof.Proof.Ref.Read

namespace Cert.Bridge

open Idealize.ShloMosaic Idealize.ShloMosaic.ValueIdx
open Cert.ReferenceIdeal.RefValue Cert.KernelIdeal.Hand Cert.LibSegmentSum

theorem layer_bridge64 (ei : IVec Cert.ReferenceIdeal.S2x1600000 32)
    (h : Cert.KernelIdeal.S100000x64.Idx → EReal)
    (hsrc : ∀ e : Fin 1700000, 0 ≤ (srcOf ei (ix1 e)).toInt ∧ (srcOf ei (ix1 e)).toInt < 100000)
    (srcP dstP : Cert.KernelIdeal.S1703936.Idx → BitVec 32) (nrmP : Cert.KernelIdeal.S1703936.Idx → EReal)
    (hsrcP : ∀ e : Fin 1703936, srcP (ix1 e)
      = if h : e.val < 1700000 then srcOf ei (ix1 ⟨e.val, h⟩) else 0#32)
    (hdstP : ∀ e : Fin 1703936, dstP (ix1 e)
      = if h : e.val < 1700000 then dstOf ei (ix1 ⟨e.val, h⟩) else 0#32)
    (hnrmP : ∀ e : Fin 1703936, nrmP (ix1 e)
      = if h : e.val < 1700000 then normOf ei (ix1 ⟨e.val, h⟩) else 0) :
    segSum2 dstP (gatSpec1 srcP nrmP h) = layer64 ei h := by
  funext i
  obtain ⟨n, d, rfl⟩ : ∃ (n : Fin 100000) (d : Fin 64), i = ix2 n d := ⟨i 0, i 1, eq_ix2 i⟩
  rw [layer64_apply ei h (srcNode ei hsrc) (srcNode_spec ei hsrc) n d]
  exact layer_padded_100000 (fun e => srcOf ei (ix1 e)) (fun e => dstOf ei (ix1 e))
    (fun e => normOf ei (ix1 e)) (fun k => h (ix2 k d)) hsrc
    (fun e => srcP (ix1 e)) (fun e => dstP (ix1 e)) (fun e => nrmP (ix1 e))
    (fun e he => by rw [hsrcP e, dif_pos he]) (fun e he => by rw [hdstP e, dif_pos he])
    (fun e he => by rw [hnrmP e, dif_pos he])
    (fun e he => by rw [hnrmP e, dif_neg (Nat.not_lt.2 he)]) n

theorem layer_bridge40 (ei : IVec Cert.ReferenceIdeal.S2x1600000 32)
    (h : Cert.KernelIdeal.S100000x40.Idx → EReal)
    (hsrc : ∀ e : Fin 1700000, 0 ≤ (srcOf ei (ix1 e)).toInt ∧ (srcOf ei (ix1 e)).toInt < 100000)
    (srcP dstP : Cert.KernelIdeal.S1703936.Idx → BitVec 32) (nrmP : Cert.KernelIdeal.S1703936.Idx → EReal)
    (hsrcP : ∀ e : Fin 1703936, srcP (ix1 e)
      = if h : e.val < 1700000 then srcOf ei (ix1 ⟨e.val, h⟩) else 0#32)
    (hdstP : ∀ e : Fin 1703936, dstP (ix1 e)
      = if h : e.val < 1700000 then dstOf ei (ix1 ⟨e.val, h⟩) else 0#32)
    (hnrmP : ∀ e : Fin 1703936, nrmP (ix1 e)
      = if h : e.val < 1700000 then normOf ei (ix1 ⟨e.val, h⟩) else 0) :
    segSum5 dstP (gatSpec4 srcP nrmP h) = layer40 ei h := by
  funext i
  obtain ⟨n, d, rfl⟩ : ∃ (n : Fin 100000) (d : Fin 40), i = ix2 n d := ⟨i 0, i 1, eq_ix2 i⟩
  rw [layer40_apply ei h (srcNode ei hsrc) (srcNode_spec ei hsrc) n d]
  exact layer_padded_100000 (fun e => srcOf ei (ix1 e)) (fun e => dstOf ei (ix1 e))
    (fun e => normOf ei (ix1 e)) (fun k => h (ix2 k d)) hsrc
    (fun e => srcP (ix1 e)) (fun e => dstP (ix1 e)) (fun e => nrmP (ix1 e))
    (fun e he => by rw [hsrcP e, dif_pos he]) (fun e he => by rw [hdstP e, dif_pos he])
    (fun e he => by rw [hnrmP e, dif_pos he])
    (fun e he => by rw [hnrmP e, dif_neg (Nat.not_lt.2 he)]) n

end Cert.Bridge
-- ==== Proof.FinalBridge.lean ====
import proofs.«133651_j30339648979593_1_alg».proof.Proof.KI.Spec
import proofs.«133651_j30339648979593_1_alg».proof.Proof.KI.Lin0Value
import proofs.«133651_j30339648979593_1_alg».proof.Proof.KI.Lin3Value
import proofs.«133651_j30339648979593_1_alg».proof.Proof.LayerBridge
import proofs.«133651_j30339648979593_1_alg».proof.Proof.Ref.Read
import proofs.«133651_j30339648979593_1_alg».proof.Proof.Ref.Stages

namespace Cert.Bridge

open Idealize.ShloMosaic Idealize.ShloMosaic.ValueIdx
open Cert.ReferenceIdeal.RefValue Cert.KernelIdeal.Hand

theorem lin0_eq_lin1 (x : Cert.ReferenceIdeal.S100000x128.Idx → EReal)
    (W1 : Cert.ReferenceIdeal.S64x128.Idx → EReal) (b1 : Cert.ReferenceIdeal.S64.Idx → EReal)
    (w30 : Cert.KernelIdeal.S128x64.Idx → EReal) (w31 : Cert.KernelIdeal.S1x64.Idx → EReal)
    (hw30 : ∀ (k : Fin 128) (d : Fin 64), w30 (ix2 k d) = W1 (ix2 d k))
    (hw31 : ∀ d : Fin 64, w31 (ix2 (0 : Fin 1) d) = b1 (ix1 d)) :
    linSpec0 x w30 w31 = lin1 x W1 b1 := by
  funext i
  obtain ⟨r, d, rfl⟩ : ∃ (r : Fin 100000) (d : Fin 64), i = ix2 r d := ⟨i 0, i 1, eq_ix2 i⟩
  rw [lin1_apply]
  show (∑ k : Fin 128, x (ix2 r k) * w30 (ix2 k d)) + w31 (ix2 (0 : Fin 1) d) = _
  rw [hw31]
  exact congrArg (· + b1 (ix1 d)) (Finset.sum_congr rfl fun k _ => by rw [hw30])

theorem lin3_eq_lin2 (h : Cert.ReferenceIdeal.S100000x64.Idx → EReal)
    (W2 : Cert.ReferenceIdeal.S40x64.Idx → EReal) (b2 : Cert.ReferenceIdeal.S40.Idx → EReal)
    (w35 : Cert.KernelIdeal.S64x40.Idx → EReal) (w36 : Cert.KernelIdeal.S1x40.Idx → EReal)
    (hw35 : ∀ (k : Fin 64) (d : Fin 40), w35 (ix2 k d) = W2 (ix2 d k))
    (hw36 : ∀ d : Fin 40, w36 (ix2 (0 : Fin 1) d) = b2 (ix1 d)) :
    linSpec3 h w35 w36 = lin2 h W2 b2 := by
  funext i
  obtain ⟨r, d, rfl⟩ : ∃ (r : Fin 100000) (d : Fin 40), i = ix2 r d := ⟨i 0, i 1, eq_ix2 i⟩
  rw [lin2_apply]
  show (∑ k : Fin 64, h (ix2 r k) * w35 (ix2 k d)) + w36 (ix2 (0 : Fin 1) d) = _
  rw [hw36]
  exact congrArg (· + b2 (ix1 d)) (Finset.sum_congr rfl fun k _ => by rw [hw35])

theorem max_zero_eq_relu (h : Cert.ReferenceIdeal.S100000x64.Idx → EReal) :
    (fun i => max (h i) 0) = relu h :=
  funext fun i => (relu_apply h i).symm

theorem lsmSpec5_eq_logSoftmax (S : Cert.ReferenceIdeal.S100000x40.Idx → EReal) :
    lsmSpec5 S = logSoftmax S := by
  funext i
  obtain ⟨r, d, rfl⟩ : ∃ (r : Fin 100000) (d : Fin 40), i = ix2 r d := ⟨i 0, i 1, eq_ix2 i⟩
  rw [logSoftmax_apply, rowSumExp_apply]
  simp only [shifted_apply, rowMax_apply]
  rfl

theorem kernel_composite_eq_ref (x : Cert.ReferenceIdeal.S100000x128.Idx → EReal)
    (W1 : Cert.ReferenceIdeal.S64x128.Idx → EReal) (b1 : Cert.ReferenceIdeal.S64.Idx → EReal)
    (W2 : Cert.ReferenceIdeal.S40x64.Idx → EReal) (b2 : Cert.ReferenceIdeal.S40.Idx → EReal)
    (ei : IVec Cert.ReferenceIdeal.S2x1600000 32)
    (hsrc : ∀ e : Fin 1700000, 0 ≤ (srcOf ei (ix1 e)).toInt ∧ (srcOf ei (ix1 e)).toInt < 100000)
    (w30 : Cert.KernelIdeal.S128x64.Idx → EReal) (w31 : Cert.KernelIdeal.S1x64.Idx → EReal)
    (w35 : Cert.KernelIdeal.S64x40.Idx → EReal) (w36 : Cert.KernelIdeal.S1x40.Idx → EReal)
    (hw30 : ∀ (k : Fin 128) (d : Fin 64), w30 (ix2 k d) = W1 (ix2 d k))
    (hw31 : ∀ d : Fin 64, w31 (ix2 (0 : Fin 1) d) = b1 (ix1 d))
    (hw35 : ∀ (k : Fin 64) (d : Fin 40), w35 (ix2 k d) = W2 (ix2 d k))
    (hw36 : ∀ d : Fin 40, w36 (ix2 (0 : Fin 1) d) = b2 (ix1 d))
    (srcP dstP : Cert.KernelIdeal.S1703936.Idx → BitVec 32) (nrmP : Cert.KernelIdeal.S1703936.Idx → EReal)
    (hsrcP : ∀ e : Fin 1703936, srcP (ix1 e)
      = if h : e.val < 1700000 then srcOf ei (ix1 ⟨e.val, h⟩) else 0#32)
    (hdstP : ∀ e : Fin 1703936, dstP (ix1 e)
      = if h : e.val < 1700000 then dstOf ei (ix1 ⟨e.val, h⟩) else 0#32)
    (hnrmP : ∀ e : Fin 1703936, nrmP (ix1 e)
      = if h : e.val < 1700000 then normOf ei (ix1 ⟨e.val, h⟩) else 0) :
    lsmSpec5 (segSum5 dstP (gatSpec4 srcP nrmP (linSpec3
        (fun i => max (segSum2 dstP (gatSpec1 srcP nrmP (linSpec0 x w30 w31)) i) 0) w35 w36)))
      = refOut x W1 b1 W2 b2 ei := by
  rw [lin0_eq_lin1 x W1 b1 w30 w31 hw30 hw31,
    layer_bridge64 ei (lin1 x W1 b1) hsrc srcP dstP nrmP hsrcP hdstP hnrmP,
    max_zero_eq_relu (layer64 ei (lin1 x W1 b1)),
    lin3_eq_lin2 (relu (layer64 ei (lin1 x W1 b1))) W2 b2 w35 w36 hw35 hw36,
    layer_bridge40 ei (lin2 (relu (layer64 ei (lin1 x W1 b1))) W2 b2) hsrc srcP dstP nrmP
      hsrcP hdstP hnrmP,
    lsmSpec5_eq_logSoftmax]
  rfl

end Cert.Bridge
-- ==== Proof.PreRange.lean ====
import proofs.«133651_j30339648979593_1_alg».proof.Pre_finite_inputs
import Idealize.ShloMosaic.Lib.ReduceAll
import Idealize.ShloMosaic.Lib.StableHlo.Predicate
import Idealize.ShloMosaic.Lib.ValueIdx
import Idealize.ShloMosaic.Lib.ValueLayout

namespace Cert.PreRange

open Idealize.ShloMosaic Idealize.ShloMosaic.ValueIdx
open Cert.Pre_finite_inputs

instance : Subsingleton S_.Idx := ⟨fun a b => funext fun d => d.elim0⟩

theorem row0_apply (a5 : IVec S2x1600000 32) (hs : S2x1600000.Slices ![0, 0] S1x1600000)
    (hc : S1x1600000.ShapeCasts S1600000) (e : Fin 1600000) :
    shapeCast S1600000 (extractStridedSlice S1x1600000 ![0, 0] a5 hs) hc (ix1 e)
      = a5 (ix2 (0 : Fin 2) e) := by
  refine (shapeCast_1a_a_apply (a := 1600000) (extractStridedSlice S1x1600000 ![0, 0] a5 hs) hc e).trans ?_
  refine extractStridedSlice_apply _ _ _ _ _ (fun a => ?_)
  match a with
  | ⟨0, _⟩ => rfl
  | ⟨1, _⟩ => exact (Nat.zero_add _).symm

theorem src_range {F : FTy → Type} [FloatOps F] [Facts]
    (a0 : FVec F S100000x128 .f32) (a1 : FVec F S64x128 .f32) (a2 : FVec F S64 .f32)
    (a3 : FVec F S40x64 .f32) (a4 : FVec F S40 .f32) (a5 : IVec S2x1600000 32)
    (h : fn (F := F) a0 a1 a2 a3 a4 a5 = fun _ => 1#1) (e : Fin 1600000) :
    0 ≤ (a5 (ix2 (0 : Fin 2) e)).toInt ∧ (a5 (ix2 (0 : Fin 2) e)).toInt < 100000 := by
  have h0 := congrFun h ix0
  dsimp only [fn, fn_part1] at h0

  have h1 := (IntOp.andi_eq_one.1 h0).2

  have h2 := Host.reduce_andi_all _ _ _ _ _ h1 (ix1 e)
  obtain ⟨hge, hlt⟩ := IntOp.andi_eq_one.1 h2
  have hge' := IntOp.cmpi_sge.1 hge
  have hlt' := IntOp.cmpi_slt.1 hlt
  rw [row0_apply] at hge' hlt'
  exact ⟨hge', hlt'⟩

end Cert.PreRange
-- ==== Proof.SrcRange.lean ====
import proofs.«133651_j30339648979593_1_alg».proof.Proof.PreRange
import proofs.«133651_j30339648979593_1_alg».proof.Proof.LibSegmentSum
import proofs.«133651_j30339648979593_1_alg».proof.Proof.Ref.Read

namespace Cert.Bridge

open Idealize.ShloMosaic Idealize.ShloMosaic.ValueIdx
open Cert.ReferenceIdeal.RefValue

theorem src_range_all [Cert.Pre_finite_inputs.Facts]
    (a0 : FVec Ideal Cert.Pre_finite_inputs.S100000x128 .f32)
    (a1 : FVec Ideal Cert.Pre_finite_inputs.S64x128 .f32)
    (a2 : FVec Ideal Cert.Pre_finite_inputs.S64 .f32)
    (a3 : FVec Ideal Cert.Pre_finite_inputs.S40x64 .f32)
    (a4 : FVec Ideal Cert.Pre_finite_inputs.S40 .f32)
    (a5 : IVec Cert.Pre_finite_inputs.S2x1600000 32)
    (h : Cert.Pre_finite_inputs.fn (F := Ideal) a0 a1 a2 a3 a4 a5 = fun _ => 1#1) :
    ∀ e : Fin 1700000, 0 ≤ (srcOf a5 (ix1 e)).toInt ∧ (srcOf a5 (ix1 e)).toInt < 100000 := by
  intro e
  rw [srcOf_apply]
  by_cases he : e.val < 1600000
  · rw [dif_pos he]
    exact Cert.PreRange.src_range a0 a1 a2 a3 a4 a5 h ⟨e.val, he⟩
  · rw [dif_neg he]
    have hlt := e.isLt
    rw [Cert.LibSegmentSum.toInt_ofNat_small _ (by omega)]
    omega

end Cert.Bridge
-- ==== Proof.Algebraic.lean ====
import proofs.«133651_j30339648979593_1_alg».proof.Defs
import proofs.«133651_j30339648979593_1_alg».proof.Proof.KI.Chain
import proofs.«133651_j30339648979593_1_alg».proof.Proof.KI.Glue
import proofs.«133651_j30339648979593_1_alg».proof.Proof.KI.Run
import proofs.«133651_j30339648979593_1_alg».proof.Proof.FinalBridge
import proofs.«133651_j30339648979593_1_alg».proof.Proof.SrcRange
import proofs.«133651_j30339648979593_1_alg».proof.Proof.Ref.Run
import proofs.«133651_j30339648979593_1_alg».proof.Proof.Gen.Pre_finite_inputs
import proofs.«133651_j30339648979593_1_alg».proof.Proof.Gen.KernelIdeal
import proofs.«133651_j30339648979593_1_alg».proof.Proof.Gen.ReferenceIdeal

set_option maxRecDepth 16384

noncomputable section

namespace Cert.Proof.Claims

open Idealize.ShloMosaic Idealize.ShloMosaic.TcCoe Idealize.ShloMosaic.ValueIdx
open Idealize.SL Idealize.SL.Sem
open Cert.KernelIdeal Cert.KernelIdeal.Gen Cert.KernelIdeal.Hand
open Cert.ReferenceIdeal.RefValue (refOut run_ref)
open Cert.Bridge

theorem kernel_value (m : (ℓ : Loc nD τ sig) → Buf (Elt Ideal) ℓ) (c : Dev nD)
    (hpre : Cert.Pre_finite_inputs.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4))
      (m ((c.tc : Thread nD τ).loc main_arg5)) = fun _ => 1#1) :
    W14 m c (Proc.devRef .tc main_v39)
      = refOut (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [w14_out, w13_msg, w12_h, w10_agg, w9_msg, w8_h, glue_arg0]
  exact kernel_composite_eq_ref _ _ _ _ _ _ (src_range_all _ _ _ _ _ _ hpre) _ _ _ _
    (glue_w30 m c) (glue_w31 m c)
    (fun k d => (glue_w35 (W10 m c) k d).trans (by rw [w10_arg3]))
    (fun d => (glue_w36 (W10 m c) d).trans (by rw [w10_arg4]))
    _ _ _ (glue_src m c) (glue_dst m c) (glue_nrm m c)

theorem algebraic : Cert.algebraic_KernelIdeal_ReferenceIdeal := by
  intro m ρ m' ρ' hpre hagree
  refine ⟨fun c => W14 m c (Proc.devRef .tc main_v39), ?_, ?_⟩
  · exact (θ_run Cert.KernelIdeal.defs _ _).mono (fun r h c =>
      ⟨h c _ (mem_uc main_v39 (by decide)),
        (h c _ (mem_uc main_arg0 (by decide))).trans (W14_main_arg0 m c),
        (h c _ (mem_uc main_arg1 (by decide))).trans (W14_main_arg1 m c),
        (h c _ (mem_uc main_arg2 (by decide))).trans (W14_main_arg2 m c),
        (h c _ (mem_uc main_arg3 (by decide))).trans (W14_main_arg3 m c),
        (h c _ (mem_uc main_arg4 (by decide))).trans (W14_main_arg4 m c),
        (h c _ (mem_uc main_arg5 (by decide))).trans (W14_main_arg5 m c)⟩) (Cert.KernelIdeal.Hand.run m ρ)
  · refine (θ_run Cert.ReferenceIdeal.defs _ _).mono
      (fun _ h c => ⟨(h c).1.trans ?_, (h c).2⟩) (run_ref m' ρ')
    rw [(hagree c).1, (hagree c).2.1, (hagree c).2.2.1, (hagree c).2.2.2.1, (hagree c).2.2.2.2.1,
      (hagree c).2.2.2.2.2]
    exact (kernel_value m c (hpre c)).symm

end Cert.Proof.Claims

end
-- ==== Proof.lean ====
import proofs.«133651_j30339648979593_1_alg».proof.Defs
import proofs.«133651_j30339648979593_1_alg».proof.Proof.Gen.Kernel
import proofs.«133651_j30339648979593_1_alg».proof.Proof.Gen.KernelIdeal
import proofs.«133651_j30339648979593_1_alg».proof.Proof.Gen.ReferenceIdeal
import proofs.«133651_j30339648979593_1_alg».proof.Proof.Gen.Pre_finite_inputs
import proofs.«133651_j30339648979593_1_alg».proof.Proof.K.Run
import proofs.«133651_j30339648979593_1_alg».proof.Proof.KI.Run
import proofs.«133651_j30339648979593_1_alg».proof.Proof.Ref.Run
import proofs.«133651_j30339648979593_1_alg».proof.Proof.Algebraic

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame (F := Bits) m ρ,
  fun m ρ _ => Cert.KernelIdeal.Hand.frame (F := Ideal) m ρ,
  Cert.ReferenceIdeal.RefValue.frame_ri,
  trivial,
  Cert.Proof.Claims.algebraic⟩

end Cert.Proof

end
